-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S100000 : Shape := ⟨1, ![100000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x4 .f32) (main_arg1 : IVec S2x3200000 32) (main_arg2 : IVec S100000 32) (main_arg3 : FVec F S4x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x4 : Shape := ⟨2, ![100000, 4]⟩
abbrev S2x3200000 : Shape := ⟨2, ![2, 3200000]⟩
abbrev S100000 : Shape := ⟨1, ![100000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S5000x4 : Shape := ⟨2, ![5000, 4]⟩
abbrev S5000x64 : Shape := ⟨2, ![5000, 64]⟩
abbrev S3200000x64 : Shape := ⟨2, ![3200000, 64]⟩
abbrev S1x64 : Shape := ⟨2, ![1, 64]⟩
abbrev S5000x1 : Shape := ⟨2, ![5000, 1]⟩
abbrev S2048 : Shape := ⟨1, ![2048]⟩
abbrev S2048x1 : Shape := ⟨2, ![2048, 1]⟩
abbrev S1x1 : Shape := ⟨2, ![1, 1]⟩
abbrev S400x64 : Shape := ⟨2, ![400, 64]⟩
abbrev S400x1 : Shape := ⟨2, ![400, 1]⟩
abbrev S2048x64 : Shape := ⟨2, ![2048, 64]⟩
abbrev S400x2048 : Shape := ⟨2, ![400, 2048]⟩

abbrev nBuf : Space → Nat
  | .hbm => 100
  | .vmem => 37
  | .smem => 0
  | _ => 0

abbrev bufTy : (tb : Table) → Fin (tcTables nBuf tb) → BufTy
  | .hbm, ⟨0, _⟩ => ⟨S100000x4, .f32⟩
  | .hbm, ⟨1, _⟩ => ⟨S2x3200000, .i32⟩
  | .hbm, ⟨2, _⟩ => ⟨S100000, .i32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S_, .f32⟩
  | .hbm, ⟨24, _⟩ => ⟨S3200000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000, .f32⟩
  | .hbm, ⟨48, _⟩ => ⟨S3200000, .f32⟩
  | .hbm, ⟨49, _⟩ => ⟨S3200000x1, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S100000x64, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000x64, .f32⟩
  | .hbm, ⟨64, _⟩ => ⟨S3200000x64, .f32⟩
  | .hbm, ⟨65, _⟩ => ⟨S3200000x64, .f32⟩
  | .hbm, ⟨66, _⟩ => ⟨S_, .f32⟩
  | .hbm, ⟨67, _⟩ => ⟨S100000x64, .f32⟩
  | .hbm, ⟨68, _⟩ => ⟨S3200000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S3200000, .i32⟩
  | .hbm, ⟨75, _⟩ => ⟨S3200000, .i1⟩
  | .hbm, ⟨76, _⟩ => ⟨S_, .i32⟩
  | .hbm, ⟨77, _⟩ => ⟨S3200000, .i32⟩
  | .hbm, ⟨78, _⟩ => ⟨S3200000, .i32⟩
  | .hbm, ⟨79, _⟩ => ⟨S3200000, .i32⟩
  | .hbm, ⟨80, _⟩ => ⟨S3200000x1, .i32⟩
  | .hbm, ⟨81, _⟩ => ⟨S3200000x64, .f32⟩
  | .hbm, ⟨82, _⟩ => ⟨S3200000x64, .f32⟩
  | .hbm, ⟨83, _⟩ => ⟨S3200000x64, .f32⟩
  | .hbm, ⟨84, _⟩ => ⟨S_, .f32⟩
  | .hbm, ⟨85, _⟩ => ⟨S100000x64, .f32⟩
  | .hbm, ⟨86, _⟩ => ⟨S3200000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S2048, .f32⟩
  | .hbm, ⟨94, _⟩ => ⟨S100000x1, .i32⟩
  | .hbm, ⟨95, _⟩ => ⟨S2048, .f32⟩
  | .hbm, ⟨96, _⟩ => ⟨S2048x1, .f32⟩
  | .hbm, ⟨97, _⟩ => ⟨S100000x1, .i32⟩
  | .hbm, ⟨98, _⟩ => ⟨S1x1, .f32⟩
  | .hbm, ⟨99, _⟩ => ⟨S2048x1, .f32⟩
  | .local _ .vmem, ⟨0, _⟩ => ⟨S5000x4, .f32⟩
  | .local _ .vmem, ⟨1, _⟩ => ⟨S5000x4, .f32⟩
  | .local _ .vmem, ⟨2, _⟩ => ⟨S4x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S400x64, .f32⟩
  | .local _ .vmem, ⟨29, _⟩ => ⟨S400x64, .f32⟩
  | .local _ .vmem, ⟨30, _⟩ => ⟨S400x1, .i32⟩
  | .local _ .vmem, ⟨31, _⟩ => ⟨S400x1, .i32⟩
  | .local _ .vmem, ⟨32, _⟩ => ⟨S2048x1, .f32⟩
  | .local _ .vmem, ⟨33, _⟩ => ⟨S64x1, .f32⟩
  | .local _ .vmem, ⟨34, _⟩ => ⟨S1x1, .f32⟩
  | .local _ .vmem, ⟨35, _⟩ => ⟨S2048x1, .f32⟩
  | .local _ .vmem, ⟨36, _⟩ => ⟨S2048x64, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![250], ![false]⟩

def k4_cond2 (i : grid4.Coords) : BitVec 1 :=
  let arg0 : BitVec 32 := BitVec.ofNat 32 (i 0).val
  let c249_i32 : BitVec 32 := 249#32
  let v20 : BitVec 1 := Scalar.cmpi .eq arg0 c249_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S400x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2048x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2048x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S2048 : S_.BroadcastsInDim S2048 (![] : Fin 0 → Fin S2048.rank)
  bcast_S2048_S2048x1_0 : S2048.BroadcastsInDim S2048x1 (![0] : Fin 1 → Fin S2048x1.rank)
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S400x1_S400x1_0_0 : ∀ a, (![0, 0] : Fin 2 → Nat) a + S400x1.size a ≤ S400x1.size a
  h_S400x1 : 0 < S400x1.numel
  shapeCasts_S400x1_S400x1 : S400x1.ShapeCasts S400x1
  iota_S400x2048_d1_w32 : S400x2048.Iotas .tc 32 [1]
  broadcasts_S400x1_S400x2048 : S400x1.Broadcasts S400x2048
  natLt_1_32 : 1 < 32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x4_S4x64_S5000x64_1_0_0_1_n_n_wf : DotDims.WF S5000x4 S4x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  scatter_S2048_S100000x1_S100000_n_0_0_1_wf : ScatterDims.WF S2048 S100000x1 S100000 [] [0] [0] 1
  dot_S400x2048_S400x64_S2048x64_0_0_1_1_n_n_wf : DotDims.WF S400x2048 S400x64 S2048x64 [0] [0] [1] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x64.size a ≤ S100000x64.size a
  hwx4_0 : ∀ i : grid4.Coords, EltTy.bits .f32 = 32 ∨ (Rect.block (s := S100000x64) S400x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S400x1.size a ≤ S100000x1.size a
  hwx4_1 : ∀ i : grid4.Coords, EltTy.bits .i32 = 32 ∨ (Rect.block (s := S100000x1) S400x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S2048x1.size a
  hwx4_2 : ∀ i : grid4.Coords, EltTy.bits .f32 = 32 ∨ (Rect.block (s := S2048x1) S2048x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2048x1.size a ≤ S2048x1.size a
  hwx4_5 : ∀ i : grid4.Coords, EltTy.bits .f32 = 32 ∨ (Rect.block (s := S2048x1) S2048x1.size (cc4_transform_5 i) (hinb4_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S400x2048_S400x64_S2048x64_0_0_1_1_n_n : DotDims S400x2048 S400x64 S2048x64 where
  lhsContracting := [0]
  rhsContracting := [0]
  lhsNonContracting := [1]
  rhsNonContracting := [1]
  lhsBatch := []
  rhsBatch := []
  wf := dot_S400x2048_S400x64_S2048x64_0_0_1_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S2048x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S2048x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

class Facts : Prop extends Facts₀ where

variable [Facts]
-- ==== ReferenceIdeal.lean ====
abbrev S100000x4 : Shape := ⟨2, ![100000, 4]⟩
abbrev S2x3200000 : Shape := ⟨2, ![2, 3200000]⟩
abbrev S100000 : Shape := ⟨1, ![100000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S2048x64 : Shape := ⟨2, ![2048, 64]⟩
abbrev S2048 : Shape := ⟨1, ![2048]⟩
abbrev S2048x1 : Shape := ⟨2, ![2048, 1]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S4x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x3200000, .i32⟩
  | 10 => ⟨S3200000, .i32⟩
  | 11 => ⟨S1x3200000, .i32⟩
  | 12 => ⟨S3200000, .i32⟩
  | 13 => ⟨S100000x64, .f32⟩
  | 14 => ⟨S_, .f32⟩
  | 15 => ⟨S100000, .f32⟩
  | 16 => ⟨S_, .i32⟩
  | 17 => ⟨S3200000, .i32⟩
  | 18 => ⟨S3200000, .i1⟩
  | 19 => ⟨S_, .i32⟩
  | 20 => ⟨S3200000, .i32⟩
  | 21 => ⟨S3200000, .i32⟩
  | 22 => ⟨S3200000, .i32⟩
  | 23 => ⟨S3200000x1, .i32⟩
  | 24 => ⟨S_, .f32⟩
  | 25 => ⟨S3200000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S3200000x1, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x64, .f32⟩
  | 60 => ⟨S3200000x64, .f32⟩
  | 61 => ⟨S3200000x64, .f32⟩
  | 62 => ⟨S_, .f32⟩
  | 63 => ⟨S100000x64, .f32⟩
  | 64 => ⟨S3200000x1, .i32⟩
  | 65 => ⟨S100000x64, .f32⟩
  | 66 => ⟨S_, .f32⟩
  | 67 => ⟨S100000, .f32⟩
  | 68 => ⟨S100000, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .f32⟩
  | 81 => ⟨S100000, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S_, .f32⟩
  | 91 => ⟨S3200000, .f32⟩
  | 92 => ⟨S100000, .f32⟩
  | 93 => ⟨S_, .f32⟩
  | 94 => ⟨S100000, .f32⟩
  | 95 => ⟨S100000, .f32⟩
  | 96 => ⟨S100000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000, .f32⟩
  | 115 => ⟨S3200000, .f32⟩
  | 116 => ⟨S3200000x1, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000x64, .f32⟩
  | 126 => ⟨S3200000x64, .f32⟩
  | 127 => ⟨S3200000x64, .f32⟩
  | _ => ⟨S100000x4, .f32⟩

abbrev hbmTy0_1 (i : Nat) : BufTy := match i % 128 with
  | 0 => ⟨S_, .f32⟩
  | 1 => ⟨S100000x64, .f32⟩
  | 2 => ⟨S3200000x1, .i32⟩
  | 3 => ⟨S100000x64, .f32⟩
  | 4 => ⟨S_, .f32⟩
  | 5 => ⟨S100000, .f32⟩
  | 6 => ⟨S100000, .f32⟩
  | 7 => ⟨S100000x1, .f32⟩
  | 8 => ⟨S100000x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S_, .f32⟩
  | 18 => ⟨S2048x64, .f32⟩
  | 19 => ⟨S100000x1, .i32⟩
  | 20 => ⟨S2048x64, .f32⟩
  | 21 => ⟨S_, .f32⟩
  | 22 => ⟨S100000, .f32⟩
  | 23 => ⟨S_, .f32⟩
  | 24 => ⟨S2048, .f32⟩
  | 25 => ⟨S100000x1, .i32⟩
  | 26 => ⟨S2048, .f32⟩
  | 27 => ⟨S_, .f32⟩
  | 28 => ⟨S2048, .f32⟩
  | 29 => ⟨S2048, .f32⟩
  | 30 => ⟨S2048x1, .f32⟩
  | 31 => ⟨S2048x64, .f32⟩
  | 32 => ⟨S2048x64, .f32⟩
  | 33 => ⟨S2048x1, .f32⟩
  | 34 => ⟨S1x1, .f32⟩
  | 35 => ⟨S2048x1, .f32⟩
  | 36 => ⟨S2048x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_cst : Ref sig .tc := ⟨.hbm, 76, rfl⟩
abbrev main_call0_v0 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_18 : Ref sig .tc := ⟨.hbm, 106, rfl⟩
abbrev main_v75 : Ref sig .tc := ⟨.hbm, 107, rfl⟩
abbrev main_v76 : Ref sig .tc := ⟨.hbm, 108, rfl⟩
abbrev main_c_19 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_20 : Ref sig .tc := ⟨.hbm, 117, rfl⟩
abbrev main_v84 : Ref sig .tc := ⟨.hbm, 118, rfl⟩
abbrev main_v85 : Ref sig .tc := ⟨.hbm, 119, rfl⟩
abbrev main_c_21 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_22 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_23 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call1_cst : Ref sig .tc := ⟨.hbm, 142, rfl⟩
abbrev main_call1_v0 : Ref sig .tc := ⟨.hbm, 143, rfl⟩
abbrev main_v105 : Ref sig .tc := ⟨.hbm, 144, rfl⟩
abbrev main_cst_24 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_25 : Ref sig .tc := ⟨.hbm, 149, rfl⟩
abbrev main_v109 : Ref sig .tc := ⟨.hbm, 150, rfl⟩
abbrev main_cst_26 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_27 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2048x64 : S_.BroadcastsInDim S2048x64 (![] : Fin 0 → Fin S2048x64.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S100000x4_S4x64_S100000x64_1_0_0_1_n_n_wf : DotDims.WF S100000x4 S4x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  scatter_S2048_S100000x1_S100000_n_0_0_1_wf : ScatterDims.WF S2048 S100000x1 S100000 [] [0] [0] 1
  dot_S2048x64_S64x1_S2048x1_1_0_0_1_n_n_wf : DotDims.WF S2048x64 S64x1 S2048x1 [1] [0] [0] [1] [] []

variable [Facts₀]

def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.SameProgram.lean ====
import proofs.«428694_j27238682591744_3_alg».proof.Proof.Gen.Kernel
import proofs.«428694_j27238682591744_3_alg».proof.Proof.Gen.KernelIdeal

set_option maxHeartbeats 2000000

noncomputable section

namespace Cert.Proof

open Idealize.ShloMosaic Idealize.SL.Sem

variable {F : FTy → Type} [FloatOps F]

-- The idealization rewrote nothing, so the two printed programs are one text: label by label the kernels' body tables agree,
theorem defs₀_eq : Cert.Kernel.defs₀ (F := F) = Cert.KernelIdeal.defs₀ (F := F) :=
  congrArg Defs.onTc (funext fun l => funext fun a => match l, a with
    | 0, (_, _) => rfl
    | 1, (_, _) => rfl
    | 2, (_, _) => rfl
    | 3, (_, _) => rfl
    | 4, (_, _) => rfl
    | ⟨_ + 5, h⟩, _ => absurd h (Nat.not_lt.2 (Nat.le_add_left _ _)))

-- hence the whole tables,
theorem defs_eq : Cert.Kernel.defs (F := F) = Cert.KernelIdeal.defs (F := F) :=
  congrArg (Pipeline.defs Cert.KernelIdeal.pcfgs) defs₀_eq

theorem main_part0_eq : Cert.Kernel.main_part0 (F := F) = Cert.KernelIdeal.main_part0 (F := F) := rfl

theorem main_part1_eq : Cert.Kernel.main_part1 (F := F) = Cert.KernelIdeal.main_part1 (F := F) := rfl

-- and @main, statement by statement.
theorem main_eq : Cert.Kernel.main (F := F) = Cert.KernelIdeal.main (F := F) := by
  unfold Cert.Kernel.main Cert.KernelIdeal.main
  rw [main_part0_eq, main_part1_eq]
  rfl

-- So a run of the one is a run of the other, to the same final states.
theorem θ_run_same (m : (ℓ : Loc Cert.Kernel.nD Cert.Kernel.τ Cert.Kernel.sig) → Buf (Elt F) ℓ) (ρ : Dev Cert.Kernel.nD → PrngReg) (post : _)
    (h : θ_run (Cert.KernelIdeal.defs (F := F)) (onTc (τ := Cert.KernelIdeal.τ) (Cert.KernelIdeal.main (F := F))) ⟨m, fun _ => 0, ρ⟩ post) :
    θ_run (Cert.Kernel.defs (F := F)) (onTc (τ := Cert.Kernel.τ) (Cert.Kernel.main (F := F))) ⟨m, fun _ => 0, ρ⟩ post := by
  rw [defs_eq, main_eq]
  exact h

end Cert.Proof

end
-- ==== Proof.KI.R0.lean ====
import proofs.«428694_j27238682591744_3_alg».proof.Proof.Gen.KernelIdeal.Launch
import proofs.«428694_j27238682591744_3_alg».proof.Proof.Gen.KernelIdeal.Skeleton
import proofs.«428694_j27238682591744_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x4 := Rect.unit (s := S5000x4) ![0, 0] S5000x4.size inb_S5000x4_S5000x4_0_0
abbrev r0_1 : Rect S4x64 := Rect.unit (s := S4x64) ![0, 0] S4x64.size inb_S4x64_S4x64_0_0
abbrev r0_2 : Rect S5000x64 := Rect.unit (s := S5000x64) ![0, 0] S5000x64.size inb_S5000x64_S5000x64_0_0

-- The output block the body leaves: the matrix product of the row block and the whole weight matrix.
def out0_2 (x0 : Vec F S5000x4 .f32) (x1 : Vec F S4x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

-- The body reads its two factor blocks and overwrites the whole output block with `out0_2` of them.
set_option maxHeartbeats 1000000 in
theorem sound_kernel0 (c : Dev nD) (E : Set ℕ) (i : grid0.Coords) (arg1 : Memref sig .tc .vmem S5000x4 .f32) (harg1 : arg1.IsWhole) (arg2 : Memref sig .tc .vmem S4x64 .f32) (harg2 : arg2.IsWhole) (arg3 : Memref sig .tc .vmem S5000x64 .f32) (harg3 : arg3.IsWhole)
    (x0 : Vec F S5000x4 .f32) (x1 : Vec F S4x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem Phi_eq0 (c : Dev nD) (t : Fin (cfg0.N + 1)) : (dat0 V c).Φ t = Pipeline.ΦA spec0 c := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1.lean ====
import proofs.«428694_j27238682591744_3_alg».proof.Proof.Gen.KernelIdeal.Launch
import proofs.«428694_j27238682591744_3_alg».proof.Proof.Gen.KernelIdeal.Skeleton
import proofs.«428694_j27238682591744_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := Rect.unit (s := S5000x64) ![0, 0] S5000x64.size inb_S5000x64_S5000x64_0_0
abbrev r1_1 : Rect S5000x64 := Rect.unit (s := S5000x64) ![0, 0] S5000x64.size inb_S5000x64_S5000x64_0_0
abbrev r1_2 : Rect S5000x1 := Rect.unit (s := S5000x1) ![0, 0] S5000x1.size inb_S5000x1_S5000x1_0_0
abbrev r1_3 : Rect S1x64 := Rect.unit (s := S1x64) ![0, 0] S1x64.size inb_S1x64_S1x64_0_0
abbrev r1_4 : Rect S5000x64 := Rect.unit (s := S5000x64) ![0, 0] S5000x64.size inb_S5000x64_S5000x64_0_0

-- The output block: max((agg + xw · invdeg) + bias, 0), entry by entry, of the four input blocks.
def out1_4 (x0 x1 : Vec F S5000x64 .f32) (x2 : Vec F S5000x1 .f32) (x3 : Vec F S1x64 .f32) : Vec F S5000x64 .f32 :=
  View.canon [⟨r1_4, k1_pay1 (View.ld x0 r1_0) (View.ld x1 r1_1) (View.ld x2 r1_2) (View.ld x3 r1_3)⟩]

theorem cover1_4 (p0 : Vec F S5000x64 .f32) (y : S5000x64.Idx) :
    ∃ pc ∈ ([⟨r1_4, p0⟩] : List (View.Piece (Elt F) S5000x64 .f32)), y ∈ pc.1.set :=
  View.cover_of_tiled [⟨r1_4, p0⟩] S5000x64.size (by rfl) y

-- The body reads its four input blocks and overwrites the whole output block with `out1_4` of them.
set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__finalize_kernel i arg1 harg1 arg2 harg2 arg3 harg3 arg4 harg4 arg5 harg5) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem Phi_eq1 (c : Dev nD) (t : Fin (cfg1.N + 1)) : (dat1 V c).Φ t = Pipeline.ΦA spec1 c := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.R2.lean ====
import proofs.«428694_j27238682591744_3_alg».proof.Proof.Gen.KernelIdeal.Launch
import proofs.«428694_j27238682591744_3_alg».proof.Proof.Gen.KernelIdeal.Skeleton
import proofs.«428694_j27238682591744_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S5000x64 := Rect.unit (s := S5000x64) ![0, 0] S5000x64.size inb_S5000x64_S5000x64_0_0

-- The second linear layer's output block: the matrix product of the row block and the whole weight matrix.
def out2_2 (x0 : Vec F S5000x64 .f32) (x1 : Vec F S64x64 .f32) : Vec F S5000x64 .f32 :=
  View.canon [⟨r2_2, k2_pay1 (View.ld x0 r2_0) (View.ld x1 r2_1)⟩]

theorem cover2_2 (p0 : Vec F S5000x64 .f32) (y : S5000x64.Idx) :
    ∃ pc ∈ ([⟨r2_2, p0⟩] : List (View.Piece (Elt F) S5000x64 .f32)), y ∈ pc.1.set :=
  View.cover_of_tiled [⟨r2_2, p0⟩] S5000x64.size (by rfl) y

-- The body reads its two factor blocks and overwrites the whole output block with `out2_2` of them.
set_option maxHeartbeats 1000000 in
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (t : Fin (cfg2.N + 1)) : (dat2 V c).owed t = 0 := by
  dsimp only [dat2]

theorem Phi_eq2 (c : Dev nD) (t : Fin (cfg2.N + 1)) : (dat2 V c).Φ t = Pipeline.ΦA spec2 c := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.R3.lean ====
import proofs.«428694_j27238682591744_3_alg».proof.Proof.Gen.KernelIdeal.Launch
import proofs.«428694_j27238682591744_3_alg».proof.Proof.Gen.KernelIdeal.Skeleton
import proofs.«428694_j27238682591744_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x64 := Rect.unit (s := S5000x64) ![0, 0] S5000x64.size inb_S5000x64_S5000x64_0_0
abbrev r3_1 : Rect S5000x64 := Rect.unit (s := S5000x64) ![0, 0] S5000x64.size inb_S5000x64_S5000x64_0_0
abbrev r3_2 : Rect S5000x1 := Rect.unit (s := S5000x1) ![0, 0] S5000x1.size inb_S5000x1_S5000x1_0_0
abbrev r3_3 : Rect S1x64 := Rect.unit (s := S1x64) ![0, 0] S1x64.size inb_S1x64_S1x64_0_0
abbrev r3_4 : Rect S5000x64 := Rect.unit (s := S5000x64) ![0, 0] S5000x64.size inb_S5000x64_S5000x64_0_0

-- The second layer's output block: max((agg + xw · invdeg) + bias, 0), entry by entry, of the four input blocks.
def out3_4 (x0 x1 : Vec F S5000x64 .f32) (x2 : Vec F S5000x1 .f32) (x3 : Vec F S1x64 .f32) : Vec F S5000x64 .f32 :=
  View.canon [⟨r3_4, k3_pay1 (View.ld x0 r3_0) (View.ld x1 r3_1) (View.ld x2 r3_2) (View.ld x3 r3_3)⟩]

theorem cover3_4 (p0 : Vec F S5000x64 .f32) (y : S5000x64.Idx) :
    ∃ pc ∈ ([⟨r3_4, p0⟩] : List (View.Piece (Elt F) S5000x64 .f32)), y ∈ pc.1.set :=
  View.cover_of_tiled [⟨r3_4, p0⟩] S5000x64.size (by rfl) y

-- The body reads its four input blocks and overwrites the whole output block with `out3_4` of them.
set_option maxHeartbeats 1000000 in
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__finalize_kernel i arg1 harg1 arg2 harg2 arg3 harg3 arg4 harg4 arg5 harg5) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by
  dsimp only [dat3]
theorem owed_eq3 (c : Dev nD) (t : Fin (cfg3.N + 1)) : (dat3 V c).owed t = 0 := by
  dsimp only [dat3]
theorem Phi_eq3 (c : Dev nD) (t : Fin (cfg3.N + 1)) : (dat3 V c).Φ t = Pipeline.ΦA spec3 c := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.Runs4.lean ====
import proofs.«428694_j27238682591744_3_alg».proof.Proof.Gen.KernelIdeal.Launch
import proofs.«428694_j27238682591744_3_alg».proof.Proof.Gen.KernelIdeal.Skeleton
import proofs.«428694_j27238682591744_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 250 = 0 :=
  (by decide +kernel : ∀ t : Fin grid4.N, cond4_0 (grid4.coords t) ↔ t.val % 250 = 0)

abbrev cond4_1 (i : grid4.Coords) : Prop := k4_cond2 i = 1#1
theorem hcond4_1 : ∀ t : Fin cfg4.N, cond4_1 (grid4.coords t) ↔ t.val % 250 = 249 :=
  (by decide +kernel : ∀ t : Fin grid4.N, cond4_1 (grid4.coords t) ↔ t.val % 250 = 249)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5_A : ∀ t : Fin cfg4.N, cond4_0 (grid4.coords t) → ¬cond4_1 (grid4.coords t) → cfg4.idle 5 (grid4.coords t) = true := by decide +kernel
theorem noFlush4_5_A : ∀ t : Fin cfg4.N, cond4_0 (grid4.coords t) → ¬cond4_1 (grid4.coords t) → (cfg4.win 5).flush t = false := by decide +kernel
theorem idleAt4_5_B : ∀ t : Fin cfg4.N, ¬cond4_0 (grid4.coords t) → ¬cond4_1 (grid4.coords t) → cfg4.idle 5 (grid4.coords t) = true := by decide +kernel
theorem noFlush4_5_B : ∀ t : Fin cfg4.N, ¬cond4_0 (grid4.coords t) → ¬cond4_1 (grid4.coords t) → (cfg4.win 5).flush t = false := by decide +kernel
theorem liveAt4_5_C : ∀ t : Fin cfg4.N, ¬cond4_0 (grid4.coords t) → cond4_1 (grid4.coords t) → cfg4.idle 5 (grid4.coords t) = false := by decide +kernel

abbrev VO4_5 : View sig .tc .vmem S2048x1 .f32 := (Memref.whole cc4_stg5_0 : Memref sig .tc .vmem S2048x1 .f32).view
abbrev ms4_0 (t : Fin cfg4.N) : Memref sig .tc .vmem S400x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S400x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2048x1 .f32 := win4_5.stage (cfg4.slots t 5)
abbrev hs4_5 (t : Fin cfg4.N) : (ms4_5 t).IsWhole := hstage4_5 ((cfg4.slots t 5).cast nbuf4_5)
abbrev scM4_0 : Memref sig .tc .vmem S2048x64 .f32 := Memref.whole cc4_scratch0
abbrev VS4_0 : View sig .tc .vmem S2048x64 .f32 := scM4_0.view

theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := Pipeline.UD sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Frm

end
-- ==== Proof.KI.Run4A.lean ====
import proofs.«428694_j27238682591744_3_alg».proof.Proof.KI.Runs4

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun4_A (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : cond4_0 i) (hc1 : ¬cond4_1 i)
    (x0 : Vec F S400x64 .f32) (x1 : Vec F S400x1 .i32) (x2 : Vec F S2048x1 .f32) (x3 : Vec F S64x1 .f32) (x4 : Vec F S1x1 .f32) :
    Σ' (L5 : List (View.Piece (Elt F) S2048x1 .f32)), { LS0 : List (View.Piece (Elt F) S2048x64 .f32) //
      ∀ (xi5 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6 arg7 harg7) K } := by
  refine ⟨[], ?_, fun xi5 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Frm

end
-- ==== Proof.KI.Run4B.lean ====
import proofs.«428694_j27238682591744_3_alg».proof.Proof.KI.Run4A

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun4_B (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : ¬cond4_1 i)
    (x0 : Vec F S400x64 .f32) (x1 : Vec F S400x1 .i32) (x2 : Vec F S2048x1 .f32) (x3 : Vec F S64x1 .f32) (x4 : Vec F S1x1 .f32) (xs0 : Vec F S2048x64 .f32) :
    Σ' (L5 : List (View.Piece (Elt F) S2048x1 .f32)), { LS0 : List (View.Piece (Elt F) S2048x64 .f32) //
      ∀ (xi5 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6 arg7 harg7) K } := by
  refine ⟨[], ?_, fun xi5 E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Frm

end
-- ==== Proof.KI.Run4C.lean ====
import proofs.«428694_j27238682591744_3_alg».proof.Proof.KI.Run4B

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun4_C (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : cond4_1 i)
    (x0 : Vec F S400x64 .f32) (x1 : Vec F S400x1 .i32) (x2 : Vec F S2048x1 .f32) (x3 : Vec F S64x1 .f32) (x4 : Vec F S1x1 .f32) (xs0 : Vec F S2048x64 .f32) :
    Σ' (L5 : List (View.Piece (Elt F) S2048x1 .f32)), { LS0 : List (View.Piece (Elt F) S2048x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6 arg7 harg7) K } := by
  refine ⟨?_, ?_, fun E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Frm

end
-- ==== Proof.KI.R4.lean ====
import proofs.«428694_j27238682591744_3_alg».proof.Proof.KI.Run4C

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def out4_A_5 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : cond4_0 i) (hc1 : ¬cond4_1 i)
    (x0 : Vec F S400x64 .f32) (x1 : Vec F S400x1 .i32) (x2 : Vec F S2048x1 .f32) (x3 : Vec F S64x1 .f32) (x4 : Vec F S1x1 .f32) : Vec F S2048x1 .f32 :=
  VO4_5.read (Elt F) (VO4_5.writes (Elt F) VO4_5.junk (kernelRun4_A c i arg1 harg1 arg2 harg2 arg3 harg3 arg4 harg4 arg5 harg5 arg6 harg6 arg7 harg7 hc0 hc1 x0 x1 x2 x3 x4).1)

theorem scover4_A_0 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : cond4_0 i) (hc1 : ¬cond4_1 i)
    (x0 : Vec F S400x64 .f32) (x1 : Vec F S400x1 .i32) (x2 : Vec F S2048x1 .f32) (x3 : Vec F S64x1 .f32) (x4 : Vec F S1x1 .f32) (y : S2048x64.Idx) :
    ∃ pc ∈ (kernelRun4_A c i arg1 harg1 arg2 harg2 arg3 harg3 arg4 harg4 arg5 harg5 arg6 harg6 arg7 harg7 hc0 hc1 x0 x1 x2 x3 x4).2.1, y ∈ pc.1.set :=
  View.cover_of_tiledL (kernelRun4_A c i arg1 harg1 arg2 harg2 arg3 harg3 arg4 harg4 arg5 harg5 arg6 harg6 arg7 harg7 hc0 hc1 x0 x1 x2 x3 x4).2.1 S2048x64.size (by sl_kernel_rfl) y

def sout4_A_0 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : cond4_0 i) (hc1 : ¬cond4_1 i)
    (x0 : Vec F S400x64 .f32) (x1 : Vec F S400x1 .i32) (x2 : Vec F S2048x1 .f32) (x3 : Vec F S64x1 .f32) (x4 : Vec F S1x1 .f32) : Vec F S2048x64 .f32 :=
  VS4_0.read (Elt F) (VS4_0.writes (Elt F) VS4_0.junk (kernelRun4_A c i arg1 harg1 arg2 harg2 arg3 harg3 arg4 harg4 arg5 harg5 arg6 harg6 arg7 harg7 hc0 hc1 x0 x1 x2 x3 x4).2.1)

def out4_B_5 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : ¬cond4_1 i)
    (x0 : Vec F S400x64 .f32) (x1 : Vec F S400x1 .i32) (x2 : Vec F S2048x1 .f32) (x3 : Vec F S64x1 .f32) (x4 : Vec F S1x1 .f32) (xs0 : Vec F S2048x64 .f32) : Vec F S2048x1 .f32 :=
  VO4_5.read (Elt F) (VO4_5.writes (Elt F) VO4_5.junk (kernelRun4_B c i arg1 harg1 arg2 harg2 arg3 harg3 arg4 harg4 arg5 harg5 arg6 harg6 arg7 harg7 hc0 hc1 x0 x1 x2 x3 x4 xs0).1)

theorem scover4_B_0 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : ¬cond4_1 i)
    (x0 : Vec F S400x64 .f32) (x1 : Vec F S400x1 .i32) (x2 : Vec F S2048x1 .f32) (x3 : Vec F S64x1 .f32) (x4 : Vec F S1x1 .f32) (xs0 : Vec F S2048x64 .f32) (y : S2048x64.Idx) :
    ∃ pc ∈ (kernelRun4_B c i arg1 harg1 arg2 harg2 arg3 harg3 arg4 harg4 arg5 harg5 arg6 harg6 arg7 harg7 hc0 hc1 x0 x1 x2 x3 x4 xs0).2.1, y ∈ pc.1.set :=
  View.cover_of_tiledL (kernelRun4_B c i arg1 harg1 arg2 harg2 arg3 harg3 arg4 harg4 arg5 harg5 arg6 harg6 arg7 harg7 hc0 hc1 x0 x1 x2 x3 x4 xs0).2.1 S2048x64.size (by sl_kernel_rfl) y

def sout4_B_0 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : ¬cond4_1 i)
    (x0 : Vec F S400x64 .f32) (x1 : Vec F S400x1 .i32) (x2 : Vec F S2048x1 .f32) (x3 : Vec F S64x1 .f32) (x4 : Vec F S1x1 .f32) (xs0 : Vec F S2048x64 .f32) : Vec F S2048x64 .f32 :=
  VS4_0.read (Elt F) (VS4_0.writes (Elt F) VS4_0.junk (kernelRun4_B c i arg1 harg1 arg2 harg2 arg3 harg3 arg4 harg4 arg5 harg5 arg6 harg6 arg7 harg7 hc0 hc1 x0 x1 x2 x3 x4 xs0).2.1)

theorem cover4_C_5 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : cond4_1 i)
    (x0 : Vec F S400x64 .f32) (x1 : Vec F S400x1 .i32) (x2 : Vec F S2048x1 .f32) (x3 : Vec F S64x1 .f32) (x4 : Vec F S1x1 .f32) (xs0 : Vec F S2048x64 .f32) (y : S2048x1.Idx) :
    ∃ pc ∈ (kernelRun4_C c i arg1 harg1 arg2 harg2 arg3 harg3 arg4 harg4 arg5 harg5 arg6 harg6 arg7 harg7 hc0 hc1 x0 x1 x2 x3 x4 xs0).1, y ∈ pc.1.set :=
  View.cover_of_tiledL (kernelRun4_C c i arg1 harg1 arg2 harg2 arg3 harg3 arg4 harg4 arg5 harg5 arg6 harg6 arg7 harg7 hc0 hc1 x0 x1 x2 x3 x4 xs0).1 S2048x1.size (by sl_kernel_rfl) y

def out4_C_5 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : cond4_1 i)
    (x0 : Vec F S400x64 .f32) (x1 : Vec F S400x1 .i32) (x2 : Vec F S2048x1 .f32) (x3 : Vec F S64x1 .f32) (x4 : Vec F S1x1 .f32) (xs0 : Vec F S2048x64 .f32) : Vec F S2048x1 .f32 :=
  VO4_5.read (Elt F) (VO4_5.writes (Elt F) VO4_5.junk (kernelRun4_C c i arg1 harg1 arg2 harg2 arg3 harg3 arg4 harg4 arg5 harg5 arg6 harg6 arg7 harg7 hc0 hc1 x0 x1 x2 x3 x4 xs0).1)

theorem scover4_C_0 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : cond4_1 i)
    (x0 : Vec F S400x64 .f32) (x1 : Vec F S400x1 .i32) (x2 : Vec F S2048x1 .f32) (x3 : Vec F S64x1 .f32) (x4 : Vec F S1x1 .f32) (xs0 : Vec F S2048x64 .f32) (y : S2048x64.Idx) :
    ∃ pc ∈ (kernelRun4_C c i arg1 harg1 arg2 harg2 arg3 harg3 arg4 harg4 arg5 harg5 arg6 harg6 arg7 harg7 hc0 hc1 x0 x1 x2 x3 x4 xs0).2.1, y ∈ pc.1.set :=
  View.cover_of_tiledL (kernelRun4_C c i arg1 harg1 arg2 harg2 arg3 harg3 arg4 harg4 arg5 harg5 arg6 harg6 arg7 harg7 hc0 hc1 x0 x1 x2 x3 x4 xs0).2.1 S2048x64.size (by sl_kernel_rfl) y

def sout4_C_0 (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : cond4_1 i)
    (x0 : Vec F S400x64 .f32) (x1 : Vec F S400x1 .i32) (x2 : Vec F S2048x1 .f32) (x3 : Vec F S64x1 .f32) (x4 : Vec F S1x1 .f32) (xs0 : Vec F S2048x64 .f32) : Vec F S2048x64 .f32 :=
  VS4_0.read (Elt F) (VS4_0.writes (Elt F) VS4_0.junk (kernelRun4_C c i arg1 harg1 arg2 harg2 arg3 harg3 arg4 harg4 arg5 harg5 arg6 harg6 arg7 harg7 hc0 hc1 x0 x1 x2 x3 x4 xs0).2.1)

-- The pooled output and the accumulator after grid point n, by recursion on n through the three cases: first, middle and last point.
def outsAt4 (c : Dev nD) : (n : ℕ) → n < cfg4.N → Vec F S2048x1 .f32 × Vec F S2048x64 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 250 = 0 then
      if h1 : (n + 1) % 250 = 249 then
        False.elim (by have hN : n + 1 < 250 := lt_of_lt_of_eq hn (show cfg4.N = 250 from N_4); omega)
      else
        (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      if h1 : (n + 1) % 250 = 249 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)
      else
        (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2)

theorem outsAt4_A (c : Dev nD) (t : Fin cfg4.N) (h0 : t.val % 250 = 0) (h1 : ¬t.val % 250 = 249) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)

theorem outsAt4_B (c : Dev nD) (t : Fin cfg4.N) (h0 : ¬t.val % 250 = 0) (h1 : ¬t.val % 250 = 249) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 250 = 0) (h1 : t.val % 250 = 249) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := Pipeline.UD sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := Pipeline.UD sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := Pipeline.UD sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

-- At every grid point the body takes the accumulator the point before left to the next one; only the last point writes the output.
set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 250 := lt_of_lt_of_eq t.isLt (show cfg4.N = 250 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  by_cases h0 : t.val % 250 = 0
  · by_cases h1 : t.val % 250 = 249
    · exfalso; omega
    ·
      rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; omega
  · by_cases h1 : t.val % 250 = 249
    ·
      rw [show (dat4 V c).leavesExact 5 t = owns (c : Thread nD τ) (ms4_5 t) fullShare ((dat4 V c).after 5 t) from by
        unfold Dat.leavesExact; rw [liveAt4_5_C t (fun h => h0 ((hcond4_0 t).mp h)) ((hcond4_1 t).mpr h1)], after4_5]
      rw [outsAt4_C V c t h0 h1]
      unfold out4_C_5 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover4_C_5 c _ _ _ _ _ _ _ _ _ _ _ _ _ _ _ _ _ _ _ _ _ _ _)
    ·
      rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

theorem hout4 (c : Dev nD) : (dat4 V c).Φ (Fin.last cfg4.N) ⊢ Pipeline.ΦA spec4 c :=
  Phi_out4 V c _ (by rw [Fin.val_last]; have : cfg4.N = 250 := N_4; omega)

end Cert.KernelIdeal.Frm

end
-- ==== Proof.KI.Run.lean ====
import proofs.«428694_j27238682591744_3_alg».proof.Proof.Gen.KernelIdeal.Launch
import proofs.«428694_j27238682591744_3_alg».proof.Proof.Gen.KernelIdeal.Skeleton
import proofs.«428694_j27238682591744_3_alg».proof.Proof.Gen.KernelIdeal.Points
import proofs.«428694_j27238682591744_3_alg».proof.Proof.Gen.KernelIdeal.Regions
import proofs.«428694_j27238682591744_3_alg».proof.Proof.KI.R0
import proofs.«428694_j27238682591744_3_alg».proof.Proof.KI.R1
import proofs.«428694_j27238682591744_3_alg».proof.Proof.KI.R2
import proofs.«428694_j27238682591744_3_alg».proof.Proof.KI.R3
import proofs.«428694_j27238682591744_3_alg».proof.Proof.KI.R4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Recorded
variable (V : (c : Dev nD) → (b : Ref sig .tc) → Buf (Elt F) ((c : Thread nD τ).loc b))
theorem recorded_eq0 (c : Dev nD) (t : Fin (cfg0.N + 1)) : (dat0 V c).recorded t = Set.univ := rfl
theorem recorded_eq1 (c : Dev nD) (t : Fin (cfg1.N + 1)) : (dat1 V c).recorded t = Set.univ := rfl
theorem recorded_eq2 (c : Dev nD) (t : Fin (cfg2.N + 1)) : (dat2 V c).recorded t = Set.univ := rfl
theorem recorded_eq3 (c : Dev nD) (t : Fin (cfg3.N + 1)) : (dat3 V c).recorded t = Set.univ := rfl
theorem recorded_eq4 (c : Dev nD) (t : Fin (cfg4.N + 1)) : (dat4 V c).recorded t = Set.univ := rfl
end Recorded

variable (m : (ℓ : Loc nD τ sig) → Buf (Elt F) ℓ) (ρ : Dev nD → PrngReg)

abbrev W0 : Dev nD → Valuation τ sig (Elt F) := fun c b => m (c, b)

-- The buffers' contents after each of @main's nine segments, as a fold from the launch memory.
def W1 (c : Dev nD) : Valuation τ sig (Elt F) := StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) :
    W1 m c (Proc.devRef .tc r) = W0 m c (Proc.devRef .tc r) := by
  unfold W1; exact StableHlo.after_of_writes_sub hostOps0 _ hostOps0_writes h

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) := StableHlo.after hostOps1 (W2 m c)
abbrev V3 : (c : Dev nD) → (b : Ref sig .tc) → Buf (Elt F) ((c : Thread nD τ).loc b) := fun c b => W3 m c b
theorem W3_of (c : Dev nD) (r : Ref sig .tc) (h : r ∉ hostOps1_W) :
    W3 m c (Proc.devRef .tc r) = W2 m c (Proc.devRef .tc r) := by
  unfold W3; exact StableHlo.after_of_writes_sub hostOps1 _ hostOps1_writes h

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

def W6 (c : Dev nD) : Valuation τ sig (Elt F) := StableHlo.after hostOps3 (W5 m c)
abbrev V6 : (c : Dev nD) → (b : Ref sig .tc) → Buf (Elt F) ((c : Thread nD τ).loc b) := fun c b => W6 m c b
theorem W6_of (c : Dev nD) (r : Ref sig .tc) (h : r ∉ hostOps3_W) :
    W6 m c (Proc.devRef .tc r) = W5 m c (Proc.devRef .tc r) := by
  unfold W6; exact StableHlo.after_of_writes_sub hostOps3 _ hostOps3_writes h

def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

def W8 (c : Dev nD) : Valuation τ sig (Elt F) := StableHlo.after hostOps4 (W7 m c)
abbrev V8 : (c : Dev nD) → (b : Ref sig .tc) → Buf (Elt F) ((c : Thread nD τ).loc b) := fun c b => W8 m c b
theorem W8_of (c : Dev nD) (r : Ref sig .tc) (h : r ∉ hostOps4_W) :
    W8 m c (Proc.devRef .tc r) = W7 m c (Proc.devRef .tc r) := by
  unfold W8; exact StableHlo.after_of_writes_sub hostOps4 _ hostOps4_writes h

def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)

-- A buffer no host operation writes is as launched at the end, once each region is known to leave it as found.
theorem W9_kept (c : Dev nD) (b : Ref sig .tc) (h0 : b ∉ hostOps0_W) (h1 : b ∉ hostOps1_W) (h3 : b ∉ hostOps3_W) (h4 : b ∉ hostOps4_W)
    (e2 : W2 m c (Proc.devRef .tc b) = W1 m c (Proc.devRef .tc b)) (e4 : W4 m c (Proc.devRef .tc b) = W3 m c (Proc.devRef .tc b))
    (e5 : W5 m c (Proc.devRef .tc b) = W4 m c (Proc.devRef .tc b)) (e7 : W7 m c (Proc.devRef .tc b) = W6 m c (Proc.devRef .tc b))
    (e9 : W9 m c (Proc.devRef .tc b) = W8 m c (Proc.devRef .tc b)) :
    W9 m c (Proc.devRef .tc b) = m ((c : Thread nD τ).loc b) :=
  e9.trans <| (W8_of m c b h4).trans <| e7.trans <| (W6_of m c b h3).trans <| e5.trans <| e4.trans <|
    (W3_of m c b h1).trans <| e2.trans (W1_of m c b h0)
theorem W9_main_arg0 (c : Dev nD) : W9 m c (Proc.devRef .tc main_arg0) = m ((c : Thread nD τ).loc main_arg0) :=
  W9_kept m c main_arg0 (by decide) (by decide) (by decide) (by decide)
    ((W2_arr m c 0).trans (((dat0 (V1 m) c).arrAt_in 0 rfl _).trans (A_eq0 (V1 m) c 0))) (W4_of_ne m c main_arg0 (by decide)) (W5_of_ne m c main_arg0 (by decide))
    (W7_of_ne m c main_arg0 (by decide)) (W9_of_ne m c main_arg0 (by decide))
theorem W9_main_arg1 (c : Dev nD) : W9 m c (Proc.devRef .tc main_arg1) = m ((c : Thread nD τ).loc main_arg1) :=
  W9_kept m c main_arg1 (by decide) (by decide) (by decide) (by decide)
    (W2_of_ne m c main_arg1 (by decide)) (W4_of_ne m c main_arg1 (by decide)) (W5_of_ne m c main_arg1 (by decide))
    (W7_of_ne m c main_arg1 (by decide)) (W9_of_ne m c main_arg1 (by decide))
theorem W9_main_arg2 (c : Dev nD) : W9 m c (Proc.devRef .tc main_arg2) = m ((c : Thread nD τ).loc main_arg2) :=
  W9_kept m c main_arg2 (by decide) (by decide) (by decide) (by decide)
    (W2_of_ne m c main_arg2 (by decide)) (W4_of_ne m c main_arg2 (by decide)) (W5_of_ne m c main_arg2 (by decide))
    (W7_of_ne m c main_arg2 (by decide)) (W9_of_ne m c main_arg2 (by decide))
theorem W9_main_arg3 (c : Dev nD) : W9 m c (Proc.devRef .tc main_arg3) = m ((c : Thread nD τ).loc main_arg3) :=
  W9_kept m c main_arg3 (by decide) (by decide) (by decide) (by decide)
    ((W2_arr m c 1).trans (((dat0 (V1 m) c).arrAt_in 1 rfl _).trans (A_eq0 (V1 m) c 1))) (W4_of_ne m c main_arg3 (by decide)) (W5_of_ne m c main_arg3 (by decide))
    (W7_of_ne m c main_arg3 (by decide)) (W9_of_ne m c main_arg3 (by decide))
theorem W9_main_arg4 (c : Dev nD) : W9 m c (Proc.devRef .tc main_arg4) = m ((c : Thread nD τ).loc main_arg4) :=
  W9_kept m c main_arg4 (by decide) (by decide) (by decide) (by decide)
    (W2_of_ne m c main_arg4 (by decide)) (W4_of_ne m c main_arg4 (by decide)) (W5_of_ne m c main_arg4 (by decide))
    (W7_of_ne m c main_arg4 (by decide)) (W9_of_ne m c main_arg4 (by decide))
theorem W9_main_arg5 (c : Dev nD) : W9 m c (Proc.devRef .tc main_arg5) = m ((c : Thread nD τ).loc main_arg5) :=
  W9_kept m c main_arg5 (by decide) (by decide) (by decide) (by decide)
    (W2_of_ne m c main_arg5 (by decide)) (W4_of_ne m c main_arg5 (by decide)) ((W5_arr m c 1).trans (((dat2 (V4 m) c).arrAt_in 1 rfl _).trans (A_eq2 (V4 m) c 1)))
    (W7_of_ne m c main_arg5 (by decide)) (W9_of_ne m c main_arg5 (by decide))
theorem W9_main_arg6 (c : Dev nD) : W9 m c (Proc.devRef .tc main_arg6) = m ((c : Thread nD τ).loc main_arg6) :=
  W9_kept m c main_arg6 (by decide) (by decide) (by decide) (by decide)
    (W2_of_ne m c main_arg6 (by decide)) (W4_of_ne m c main_arg6 (by decide)) (W5_of_ne m c main_arg6 (by decide))
    (W7_of_ne m c main_arg6 (by decide)) (W9_of_ne m c main_arg6 (by decide))
theorem W9_main_arg7 (c : Dev nD) : W9 m c (Proc.devRef .tc main_arg7) = m ((c : Thread nD τ).loc main_arg7) :=
  W9_kept m c main_arg7 (by decide) (by decide) (by decide) (by decide)
    (W2_of_ne m c main_arg7 (by decide)) (W4_of_ne m c main_arg7 (by decide)) (W5_of_ne m c main_arg7 (by decide))
    (W7_of_ne m c main_arg7 (by decide)) ((W9_arr m c 3).trans (((dat4 (V8 m) c).arrAt_in 3 rfl _).trans (A_eq4 (V8 m) c 3)))
theorem W9_main_arg8 (c : Dev nD) : W9 m c (Proc.devRef .tc main_arg8) = m ((c : Thread nD τ).loc main_arg8) :=
  W9_kept m c main_arg8 (by decide) (by decide) (by decide) (by decide)
    (W2_of_ne m c main_arg8 (by decide)) (W4_of_ne m c main_arg8 (by decide)) (W5_of_ne m c main_arg8 (by decide))
    (W7_of_ne m c main_arg8 (by decide)) (W9_of_ne m c main_arg8 (by decide))

def pdats : (p : Fin 5) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V6 m) c
  | ⟨4, _⟩ => fun c => dat4 (V8 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (V1 m) c 0]
      icases HO with ⟨%W, HO⟩; iexists W; isplitr
      · ipureintro
        exact fun x _ => Or.inl (by show x ∈ (dat0 (V1 m) c).recorded 0; rw [recorded_eq0]; exact Set.mem_univ x)
      iexact HO
    isplitl [Hp]; · iexact Hp
    iexact Hrest
  hin c := by
    rw [show (pdats m 0 c).Φ 0 = Pipeline.ΦA spec0 c from Phi_eq0 (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi_eq0 (V1 m) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun w => q_eq0 (V1 m) c w)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (V1 m) c (Fin.last _)]
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (V3 m) c 0]
      icases HO with ⟨%W, HO⟩; iexists W; isplitr
      · ipureintro
        exact fun x _ => Or.inl (by show x ∈ (dat1 (V3 m) c).recorded 0; rw [recorded_eq1]; exact Set.mem_univ x)
      iexact HO
    isplitl [Hp]; · iexact Hp
    iexact Hrest
  hin c := by
    rw [show (pdats m 1 c).Φ 0 = Pipeline.ΦA spec1 c from Phi_eq1 (V3 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi_eq1 (V3 m) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun w => q_eq1 (V3 m) c w)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (V3 m) c (Fin.last _)]
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun c t => owed_eq2 (V4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (V4 m) c w) (V4 m c) fun w => A_eq2 (V4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed_eq2 (V4 m) c 0]
      icases HO with ⟨%W, HO⟩; iexists W; isplitr
      · ipureintro
        exact fun x _ => Or.inl (by show x ∈ (dat2 (V4 m) c).recorded 0; rw [recorded_eq2]; exact Set.mem_univ x)
      iexact HO
    isplitl [Hp]; · iexact Hp
    iexact Hrest
  hin c := by
    rw [show (pdats m 2 c).Φ 0 = Pipeline.ΦA spec2 c from Phi_eq2 (V4 m) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Phi_eq2 (V4 m) c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun w => q_eq2 (V4 m) c w)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from owed_eq2 (V4 m) c (Fin.last _)]
    icases HO with ⟨%W, -, HO⟩; iexists W; iexact HO

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun c t => owed_eq3 (V6 m) c t
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (V6 m) c w) (V6 m c) fun w => A_eq3 (V6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from owed_eq3 (V6 m) c 0]
      icases HO with ⟨%W, HO⟩; iexists W; isplitr
      · ipureintro
        exact fun x _ => Or.inl (by show x ∈ (dat3 (V6 m) c).recorded 0; rw [recorded_eq3]; exact Set.mem_univ x)
      iexact HO
    isplitl [Hp]; · iexact Hp
    iexact Hrest
  hin c := by
    rw [show (pdats m 3 c).Φ 0 = Pipeline.ΦA spec3 c from Phi_eq3 (V6 m) c 0]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from Phi_eq3 (V6 m) c (Fin.last _)]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun w => q_eq3 (V6 m) c w)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 3 c).owed (Fin.last _) = 0 from owed_eq3 (V6 m) c (Fin.last _)]
    icases HO with ⟨%W, -, HO⟩; iexists W; iexact HO

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m) c).loose
  hwaits := Pipeline.hwaits_of_owed_zero _ _ _ _ L lv 4 fun c t => owed_eq4 (V8 m) c t
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec4 c (V8 m c)
  hentry c := by
    rw [Pipeline.ownSems0_none]
    have hsplit := Pipeline.arrays_of_unscopedBufs (p := 4) (pcfgs (F := F)) adm (pdats m) launch4.win launch4.arr_whole c
      ((pdats m 4 c).share_full fun w => q_eq4 (V8 m) c w) (V8 m c) fun w => A_eq4 (V8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 4 c).owed 0 = 0 from owed_eq4 (V8 m) c 0]
      icases HO with ⟨%W, HO⟩; iexists W; isplitr
      · ipureintro
        exact fun x _ => Or.inl (by show x ∈ (dat4 (V8 m) c).recorded 0; rw [recorded_eq4]; exact Set.mem_univ x)
      iexact HO
    isplitl [Hp]; · iexact Hp
    iexact Hrest
  hin c := by
    refine BIClass.entails_trans ?_ (hin4 (V8 m) c)
    unfold Pipeline.ΦA
    iintro ⟨Hp, -, Hr⟩
    isplitl [Hr]; · iexact Hr
    iexact Hp
  hout c := by
    rw [Pipeline.ownSems0_none]
    refine BIClass.entails_trans (hout4 (V8 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun w => q_eq4 (V8 m) c w)
      (V8 m c) (V9 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m 4 c).owed (Fin.last _) = 0 from owed_eq4 (V8 m) c (Fin.last _)]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)),
    .region (reg4 m) ]
theorem segs_prog : (segs m).map Pipeline.Seg.prog = [
      StableHlo.seq hostOps0,
      Prog.lift (.customCall (Pipeline.entry 0) ()),
      StableHlo.seq hostOps1,
      Prog.lift (.customCall (Pipeline.entry 1) ()),
      Prog.lift (.customCall (Pipeline.entry 2) ()),
      StableHlo.seq hostOps3,
      Prog.lift (.customCall (Pipeline.entry 3) ()),
      StableHlo.seq hostOps4,
      Prog.lift (.customCall (Pipeline.entry 4) ()) ] := rfl
theorem main_run (c : Dev nD) : main (F := F) c = Pipeline.Seg.run (segs m) := by
  rw [main_chain c, Pipeline.Seg.run_eq_chain, segs_prog]

-- The run: from any memory @main ends, and its buffers hold the last fold's value.
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.KernelIdeal.Frm

end
-- ==== Proof.KI.BridgeHost0.lean ====
import proofs.«428694_j27238682591744_3_alg».proof.Proof.Gen.KernelIdeal.Launch
import proofs.«428694_j27238682591744_3_alg».proof.Proof.Gen.ReferenceIdeal.Read
import Idealize.ShloMosaic.Lib.StableHlo.Run

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

open Cert.ReferenceIdeal.Read in
set_option maxRecDepth 8192 in
-- The first host operations compute the reference's own terms of the edge list: sources, destinations, edge coefficients, inverse degrees.
set_option maxHeartbeats 4000000 in
theorem host0_src : StableHlo.after hostOps0 W (Proc.devRef .tc main_v1)
    = Cert.ReferenceIdeal.Read.val_main_v1 (F := F) (W (Proc.devRef .tc main_arg1)) := by
  after_results_simp
  unfold val_main_v1 val_main_v0
  rfl

open Cert.ReferenceIdeal.Read in
set_option maxRecDepth 8192 in
set_option maxHeartbeats 4000000 in
theorem host0_dst : StableHlo.after hostOps0 W (Proc.devRef .tc main_v3)
    = Cert.ReferenceIdeal.Read.val_main_v3 (F := F) (W (Proc.devRef .tc main_arg1)) := by
  after_results_simp
  unfold val_main_v3 val_main_v2
  rfl

open Cert.ReferenceIdeal.Read in
set_option maxRecDepth 8192 in
set_option maxHeartbeats 4000000 in
theorem host0_coef : StableHlo.after hostOps0 W (Proc.devRef .tc main_v31)
    = Cert.ReferenceIdeal.Read.val_main_v32 (F := F) (W (Proc.devRef .tc main_arg1)) := by
  after_results_simp
  unfold val_main_v32 val_main_v31 val_main_v30 val_main_v29 val_main_v28 val_main_v27 val_main_v26 val_main_v25 val_main_v24
    val_main_v23 val_main_v22 val_main_v21 val_main_v20 val_main_v19 val_main_v18 val_main_v17 val_main_v16 val_main_v15
    val_main_v14 val_main_v13 val_main_v12 val_main_v11 val_main_v10 val_main_v9 val_main_v8 val_main_v7 val_main_v6 val_main_v5
    val_main_v3 val_main_v2 val_main_v1 val_main_v0
    val_main_cst val_main_c val_main_c_0 val_main_cst_1 val_main_cst_2 val_main_c_3 val_main_c_4 val_main_c_5 val_main_c_6
  rfl

open Cert.ReferenceIdeal.Read in
set_option maxRecDepth 8192 in
set_option maxHeartbeats 4000000 in
theorem host0_invdeg : StableHlo.after hostOps0 W (Proc.devRef .tc main_v34)
    = Cert.ReferenceIdeal.Read.val_main_v47 (F := F) (W (Proc.devRef .tc main_arg1)) := by
  after_results_simp
  unfold val_main_v47 val_main_v46 val_main_v45 val_main_v15 val_main_v14 val_main_v13 val_main_v12 val_main_v11 val_main_v10
    val_main_v9 val_main_v8 val_main_v7 val_main_v6 val_main_v5 val_main_v3 val_main_v2
    val_main_cst val_main_c val_main_c_0 val_main_cst_1 val_main_cst_2 val_main_cst_10
  rfl

end Cert.KernelIdeal.Val

end
-- ==== Proof.LibMatmulPlain.lean ====
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

theorem contr_rank (hlc : d.lhsContracting = [1]) : d.contr.rank = 1 := by
  rw [d.rank_contr, hlc]; rfl

theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

-- A plain [M, K] by [K, N] product into a zero accumulator, at (p, q): ∑ k, l (p, k) · r (k, q).
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.KI.ValLin.lean ====
import proofs.«428694_j27238682591744_3_alg».proof.Proof.KI.R0
import proofs.«428694_j27238682591744_3_alg».proof.Proof.KI.R2
import proofs.«428694_j27238682591744_3_alg».proof.Proof.Gen.ReferenceIdeal.Read
import proofs.«428694_j27238682591744_3_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

section HostProduct

variable {M K N : Nat} (d : DotDims ⟨2, ![M, K]⟩ ⟨2, ![K, N]⟩ ⟨2, ![M, N]⟩)

open Cert.Lib.MatmulPlain in
theorem hostProduct_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end HostProduct

theorem zero_offsets : (![0, 0] : Fin 2 → Nat) = fun _ => 0 := funext fun a => by fin_cases a <;> rfl

-- The block product at (p, q) is the plain sum over the contracted axis.
theorem linear0_block_apply (x0 : Vec Ideal S5000x4 .f32) (x1 : Vec Ideal S4x64 .f32) (p : Fin 5000) (q : Fin 64) :
    k0_pay1 (F := Ideal) x0 x1 (ix2 p q) = ∑ k : Fin 4, x0 (ix2 p k) * x1 (ix2 k q) := by
  unfold k0_pay1
  exact Cert.Lib.MatmulPlain.matmul_zero_apply dot_S5000x4_S4x64_S5000x64_1_0_0_1_n_n rfl rfl rfl rfl rfl rfl none
    (truncf .bf16 x0 bitsLt_bf16_f32) (truncf .bf16 x1 bitsLt_bf16_f32) p q

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b)) (c : Dev nD)

theorem linear0_point (A : Cert.ReferenceIdeal.S100000x4.Idx → EReal) (B : Cert.ReferenceIdeal.S4x64.Idx → EReal)
    (x0 : Vec Ideal S5000x4 .f32) (x1 : Vec Ideal S4x64 .f32) (j : S5000x64.Idx) (i : Cert.ReferenceIdeal.S100000x64.Idx) (n : Nat)
    (hi0 : (i 0).val = n * 5000 + (j 0).val) (hi1 : (i 1).val = (j 1).val)
    (h0 : ∀ (p : Fin 5000) (k : Fin 4) (r : Fin 100000), r.val = n * 5000 + p.val → x0 (ix2 p k) = A (ix2 r k))
    (h1 : ∀ (k : Fin 4) (q : Fin 64), x1 (ix2 k q) = B (ix2 k q)) :
    k0_pay1 (F := Ideal) x0 x1 j
      = Host.dotGeneral (F := Ideal) (φ₁ := .f32) (φ₂ := .f32) Cert.ReferenceIdeal.dot_S100000x4_S4x64_S100000x64_1_0_0_1_n_n none A B i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hi1
  rw [linear0_block_apply]
  refine Eq.trans ?_ (hostProduct_apply Cert.ReferenceIdeal.dot_S100000x4_S4x64_S100000x64_1_0_0_1_n_n rfl rfl rfl rfl rfl rfl none .single A B r s).symm
  exact Finset.sum_congr rfl fun k _ => by rw [h0 p k r hi0, h1 k s]

abbrev product0 : Cert.ReferenceIdeal.S100000x64.Idx → EReal :=
  Host.dotGeneral (F := Ideal) (φ₁ := .f32) (φ₂ := .f32) Cert.ReferenceIdeal.dot_S100000x4_S4x64_S100000x64_1_0_0_1_n_n none (V c main_arg0) (V c main_arg3)

theorem flushed0_eq (t : Fin cfg0.N) :
    (dat0 (F := Ideal) V c).flushed 2 t = ((cfg0.win 2).blk t).view.read (Elt Ideal) (product0 V c) := by
  show (cfg0.win 2).cut (grid0.coords t) ((dat0 (F := Ideal) V c).after 2 t) = _
  rw [after0_2]
  unfold out0_2
  rw [View.canon_unit_zero zero_offsets]
  simp only [View.ld_unit_zero (S := S5000x4) zero_offsets, View.ld_unit_zero (S := S4x64) zero_offsets]
  obtain ⟨e00, e01, e10, e11, e20, e21⟩ := idx_facts0 t
  funext j
  show k0_pay1 (F := Ideal) (iblk0 V c 0 t) (iblk0 V c 1 t) j = product0 V c (((cfg0.win 2).blk t).view.emb j)
  refine linear0_point (V c main_arg0) (V c main_arg3) (iblk0 V c 0 t) (iblk0 V c 1 t) j _ t.val ?_ ?_ ?_ ?_
  · show win0_2.index t (0 : Fin 2) * 5000 + 1 * (j 0).val = t.val * 5000 + (j 0).val
    rw [e20]; omega
  · show win0_2.index t (1 : Fin 2) * 64 + 1 * (j 1).val = (j 1).val
    rw [e21]; omega
  · intro p k r hr
    show V c main_arg0 (((cfg0.win 0).blk t).view.emb (ix2 p k)) = V c main_arg0 (ix2 r k)
    refine congrArg (V c main_arg0) ?_
    funext a; apply Fin.ext
    match a with
    | ⟨0, _⟩ => show win0_0.index t (0 : Fin 2) * 5000 + 1 * p.val = r.val; rw [e00, hr]; omega
    | ⟨1, _⟩ => show win0_0.index t (1 : Fin 2) * 4 + 1 * k.val = k.val; rw [e01]; omega
  · intro k q
    show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 4 + 1 * k.val = k.val; rw [e10]; omega
    | ⟨1, _⟩ => show win0_1.index t (1 : Fin 2) * 64 + 1 * q.val = q.val; rw [e11]; omega

theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  obtain ⟨t, ht⟩ : ∃ t : Fin cfg0.N, t.val = (i 0).val / 5000 := ⟨⟨(i 0).val / 5000, by show _ < grid0.N; rw [hN]; omega⟩, rfl⟩
  obtain ⟨-, -, -, -, e20, e21⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 64 ≤ (i 1).val ∧ (i 1).val < win0_2.index t (1 : Fin 2) * 64 + 64; rw [e21]; omega

-- Block by block the output array is the whole product of the two input arrays.
theorem lin0_value : ((dat0 (F := Ideal) V c).arrAt 2 cfg0.N)
    = Host.dotGeneral (F := Ideal) (φ₁ := .f32) (φ₂ := .f32) Cert.ReferenceIdeal.dot_S100000x4_S4x64_S100000x64_1_0_0_1_n_n none (V c main_arg0) (V c main_arg3) :=
  (dat0 (F := Ideal) V c).arrAt_eq_of_cover 2 (product0 V c) (fun t _ => flushed0_eq V c t) (cover0)

theorem linear2_block_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  have e : k2_pay1 (F := Ideal) x0 x1
      = matmul dot_S5000x64_S64x64_S5000x64_1_0_0_1_n_n none (truncf .bf16 x0 bitsLt_bf16_f32) (truncf .bf16 x1 bitsLt_bf16_f32)
          (constant (F := Ideal) S5000x64 .f32 0x00000000#32) := by
    unfold k2_pay1
    simp only [shapeCast_self]
  rw [e]
  exact Cert.Lib.MatmulPlain.matmul_zero_apply dot_S5000x64_S64x64_S5000x64_1_0_0_1_n_n rfl rfl rfl rfl rfl rfl none
    (truncf .bf16 x0 bitsLt_bf16_f32) (truncf .bf16 x1 bitsLt_bf16_f32) p q

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem linear2_point (A : Cert.ReferenceIdeal.S100000x64.Idx → EReal) (B : Cert.ReferenceIdeal.S64x64.Idx → EReal)
    (x0 : Vec Ideal S5000x64 .f32) (x1 : Vec Ideal S64x64 .f32) (j : S5000x64.Idx) (i : Cert.ReferenceIdeal.S100000x64.Idx) (n : Nat)
    (hi0 : (i 0).val = n * 5000 + (j 0).val) (hi1 : (i 1).val = (j 1).val)
    (h0 : ∀ (p : Fin 5000) (k : Fin 64) (r : Fin 100000), r.val = n * 5000 + p.val → x0 (ix2 p k) = A (ix2 r k))
    (h1 : ∀ (k : Fin 64) (q : Fin 64), x1 (ix2 k q) = B (ix2 k q)) :
    k2_pay1 (F := Ideal) x0 x1 j
      = Host.dotGeneral (F := Ideal) (φ₁ := .f32) (φ₂ := .f32) Cert.ReferenceIdeal.dot_S100000x64_S64x64_S100000x64_1_0_0_1_n_n none A B i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : s = q := Fin.ext hi1
  rw [linear2_block_apply]
  refine Eq.trans ?_ (hostProduct_apply Cert.ReferenceIdeal.dot_S100000x64_S64x64_S100000x64_1_0_0_1_n_n rfl rfl rfl rfl rfl rfl none .single A B r s).symm
  exact Finset.sum_congr rfl fun k _ => by rw [h0 p k r hi0, h1 k s]

abbrev product2 : Cert.ReferenceIdeal.S100000x64.Idx → EReal :=
  Host.dotGeneral (F := Ideal) (φ₁ := .f32) (φ₂ := .f32) Cert.ReferenceIdeal.dot_S100000x64_S64x64_S100000x64_1_0_0_1_n_n none (V c main_v49) (V c main_arg5)

theorem flushed2_eq (t : Fin cfg2.N) :
    (dat2 (F := Ideal) V c).flushed 2 t = ((cfg2.win 2).blk t).view.read (Elt Ideal) (product2 V c) := by
  show (cfg2.win 2).cut (grid2.coords t) ((dat2 (F := Ideal) V c).after 2 t) = _
  rw [after2_2]
  unfold out2_2
  rw [View.canon_unit_zero zero_offsets]
  simp only [View.ld_unit_zero (S := S5000x64) zero_offsets, View.ld_unit_zero (S := S64x64) zero_offsets]
  obtain ⟨e00, e01, e10, e11, e20, e21⟩ := idx_facts2 t
  funext j
  show k2_pay1 (F := Ideal) (iblk2 V c 0 t) (iblk2 V c 1 t) j = product2 V c (((cfg2.win 2).blk t).view.emb j)
  refine linear2_point (V c main_v49) (V c main_arg5) (iblk2 V c 0 t) (iblk2 V c 1 t) j _ t.val ?_ ?_ ?_ ?_
  · show win2_2.index t (0 : Fin 2) * 5000 + 1 * (j 0).val = t.val * 5000 + (j 0).val
    rw [e20]; omega
  · show win2_2.index t (1 : Fin 2) * 64 + 1 * (j 1).val = (j 1).val
    rw [e21]; omega
  · intro p k r hr
    show V c main_v49 (((cfg2.win 0).blk t).view.emb (ix2 p k)) = V c main_v49 (ix2 r k)
    refine congrArg (V c main_v49) ?_
    funext a; apply Fin.ext
    match a with
    | ⟨0, _⟩ => show win2_0.index t (0 : Fin 2) * 5000 + 1 * p.val = r.val; rw [e00, hr]; omega
    | ⟨1, _⟩ => show win2_0.index t (1 : Fin 2) * 64 + 1 * k.val = k.val; rw [e01]; omega
  · intro k q
    show V c main_arg5 (((cfg2.win 1).blk t).view.emb (ix2 k q)) = V c main_arg5 (ix2 k q)
    refine congrArg (V c main_arg5) ?_
    funext a; apply Fin.ext
    match a with
    | ⟨0, _⟩ => show win2_1.index t (0 : Fin 2) * 64 + 1 * k.val = k.val; rw [e10]; omega
    | ⟨1, _⟩ => show win2_1.index t (1 : Fin 2) * 64 + 1 * q.val = q.val; rw [e11]; omega

theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v50).slice (win2_2.rect t)).set ↔ _
  rw [View.set_slice_whole, Rect.mem_set_unit]
  exact Iff.rfl

theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  obtain ⟨t, ht⟩ : ∃ t : Fin cfg2.N, t.val = (i 0).val / 5000 := ⟨⟨(i 0).val / 5000, by show _ < grid2.N; rw [hN]; omega⟩, rfl⟩
  obtain ⟨-, -, -, -, e20, e21⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e20, ht]; omega
  | ⟨1, _⟩ => show win2_2.index t (1 : Fin 2) * 64 ≤ (i 1).val ∧ (i 1).val < win2_2.index t (1 : Fin 2) * 64 + 64; rw [e21]; omega

-- The same for the second linear layer.
theorem lin2_value : ((dat2 (F := Ideal) V c).arrAt 2 cfg2.N)
    = Host.dotGeneral (F := Ideal) (φ₁ := .f32) (φ₂ := .f32) Cert.ReferenceIdeal.dot_S100000x64_S64x64_S100000x64_1_0_0_1_n_n none (V c main_v49) (V c main_arg5) :=
  (dat2 (F := Ideal) V c).arrAt_eq_of_cover 2 (product2 V c) (fun t _ => flushed2_eq V c t) (cover2)

end Cert.KernelIdeal.Val

end
-- ==== Proof.KI.Finalize.lean ====
import proofs.«428694_j27238682591744_3_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Val

open Idealize.ShloMosaic Idealize.ShloMosaic.TcCoe Idealize.SL.Sem
open Idealize.ShloMosaic.ValueIdx

theorem zero_offsets : (![0, 0] : Fin 2 → Nat) = fun _ => 0 := funext fun a => by fin_cases a <;> rfl

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

abbrev finalizeRef (agg xw : FVec Ideal Cert.ReferenceIdeal.S100000x64 .f32) (inv : FVec Ideal Cert.ReferenceIdeal.S100000x1 .f32)
    (bias : FVec Ideal Cert.ReferenceIdeal.S1x64 .f32) : FVec Ideal Cert.ReferenceIdeal.S100000x64 .f32 :=
  maximumf (addf (addf agg (mulf xw (broadcastInDim Cert.ReferenceIdeal.S100000x64 ![0, 1] Cert.ReferenceIdeal.Facts₀.bcast_S100000x1_S100000x64_0_1 inv)))
                 (broadcastInDim Cert.ReferenceIdeal.S100000x64 ![0, 1] Cert.ReferenceIdeal.Facts₀.bcast_S1x64_S100000x64_0_1 bias))
           (broadcastInDim Cert.ReferenceIdeal.S100000x64 ![] Cert.ReferenceIdeal.Facts₀.bcast_S_S100000x64 (constant (F := Ideal) Cert.ReferenceIdeal.S_ .f32 0x00000000#32))

-- The reference's finalize chain read at (r, q).
theorem finalizeRef_apply (agg xw : FVec Ideal Cert.ReferenceIdeal.S100000x64 .f32) (inv : FVec Ideal Cert.ReferenceIdeal.S100000x1 .f32)
    (bias : FVec Ideal Cert.ReferenceIdeal.S1x64 .f32) (r : Fin 100000) (q : Fin 64) :
    finalizeRef agg xw inv bias (ix2 r q)
      = max ((agg (ix2 r q) + xw (ix2 r q) * inv (ix2 r (0 : Fin 1))) + bias (ix2 (0 : Fin 1) q)) (Ideal.ofBits .f32 0x00000000#32) := by
  unfold finalizeRef
  rw [maximumf_apply, addf_apply, addf_apply, mulf_apply]
  rw [broadcastInDim_apply _ Cert.ReferenceIdeal.Facts₀.bcast_S100000x1_S100000x64_0_1 inv (ix2 r q) (ix2 r (0 : Fin 1)) (fun a => match a with
        | ⟨0, _⟩ => by show r.val = if (100000 : Nat) = 1 then 0 else r.val; rw [if_neg (by decide)]
        | ⟨1, _⟩ => by show 0 = if (1 : Nat) = 1 then 0 else q.val; rw [if_pos rfl]),
      broadcastInDim_apply _ Cert.ReferenceIdeal.Facts₀.bcast_S1x64_S100000x64_0_1 bias (ix2 r q) (ix2 (0 : Fin 1) q) (fun a => match a with
        | ⟨0, _⟩ => by show 0 = if (1 : Nat) = 1 then 0 else r.val; rw [if_pos rfl]
        | ⟨1, _⟩ => by show q.val = if (64 : Nat) = 1 then 0 else q.val; rw [if_neg (by decide)]),
      broadcastInDim_apply _ Cert.ReferenceIdeal.Facts₀.bcast_S_S100000x64 _ (ix2 r q) ix0 (fun a => a.elim0)]
  rfl

end Cert.KernelIdeal.Val

end
-- ==== Proof.KI.ValFin1.lean ====
import proofs.«428694_j27238682591744_3_alg».proof.Proof.Gen.ReferenceIdeal
import proofs.«428694_j27238682591744_3_alg».proof.Proof.KI.R1
import proofs.«428694_j27238682591744_3_alg».proof.Proof.KI.Finalize
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx

section Region1

variable (V : (c : Dev nD) → (b : Ref sig .tc) → Buf (Elt Ideal) ((c : Thread nD τ).loc b)) (c : Dev nD)

theorem pay1_apply (x0 x1 : FVec Ideal S5000x64 .f32) (x2 : FVec Ideal S5000x1 .f32) (x3 : FVec Ideal S1x64 .f32) (p : Fin 5000) (q : Fin 64) :
    k1_pay1 (F := Ideal) x0 x1 x2 x3 (ix2 p q)
      = max ((x0 (ix2 p q) + x1 (ix2 p q) * x2 (ix2 p (0 : Fin 1))) + x3 (ix2 (0 : Fin 1) q)) (Ideal.ofBits .f32 0x00000000#32) := by
  unfold k1_pay1
  simp only [shapeCast_self]
  rw [maximumf_apply, addf_apply, addf_apply, mulf_apply, broadcast_apply]
  rw [broadcastTo_a1_ab_apply, broadcastTo_1b_ab_apply]
  rfl

theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem agg_block1 (t : Fin cfg1.N) (p : Fin 5000) (q : Fin 64) (r : Fin 100000) (hr : r.val = 5000 * t.val + p.val) :
    (iblk1 V c 0 t : FVec Ideal S5000x64 .f32) (ix2 p q) = (V c main_v47 : S100000x64.Idx → EReal) (ix2 r q) := by
  obtain ⟨e0, e1, -⟩ := block_index1 t
  unfold iblk1
  rw [View.read_apply]
  show V c main_v47 _ = V c main_v47 _
  congr 1
  funext a; apply Fin.ext
  match a with
  | ⟨0, _⟩ => show win1_0.index t (0 : Fin 2) * 5000 + 1 * p.val = r.val; rw [e0, hr]; omega
  | ⟨1, _⟩ => show win1_0.index t (1 : Fin 2) * 64 + 1 * q.val = q.val; rw [e1]; omega

theorem xw_block1 (t : Fin cfg1.N) (p : Fin 5000) (q : Fin 64) (r : Fin 100000) (hr : r.val = 5000 * t.val + p.val) :
    (iblk1 V c 1 t : FVec Ideal S5000x64 .f32) (ix2 p q) = (V c main_v35 : S100000x64.Idx → EReal) (ix2 r q) := by
  obtain ⟨-, -, e0, e1, -⟩ := block_index1 t
  unfold iblk1
  rw [View.read_apply]
  show V c main_v35 _ = V c main_v35 _
  congr 1
  funext a; apply Fin.ext
  match a with
  | ⟨0, _⟩ => show win1_1.index t (0 : Fin 2) * 5000 + 1 * p.val = r.val; rw [e0, hr]; omega
  | ⟨1, _⟩ => show win1_1.index t (1 : Fin 2) * 64 + 1 * q.val = q.val; rw [e1]; omega

theorem inv_block1 (t : Fin cfg1.N) (p : Fin 5000) (u : Fin 1) (r : Fin 100000) (hr : r.val = 5000 * t.val + p.val) :
    (iblk1 V c 2 t : FVec Ideal S5000x1 .f32) (ix2 p u) = (V c main_v34 : S100000x1.Idx → EReal) (ix2 r u) := by
  obtain ⟨-, -, -, -, e0, e1, -⟩ := block_index1 t
  unfold iblk1
  rw [View.read_apply]
  show V c main_v34 _ = V c main_v34 _
  congr 1
  funext a; apply Fin.ext
  match a with
  | ⟨0, _⟩ => show win1_2.index t (0 : Fin 2) * 5000 + 1 * p.val = r.val; rw [e0, hr]; omega
  | ⟨1, _⟩ => show win1_2.index t (1 : Fin 2) * 1 + 1 * u.val = u.val; rw [e1]; omega

theorem bias_block1 (t : Fin cfg1.N) (u : Fin 1) (q : Fin 64) :
    (iblk1 V c 3 t : FVec Ideal S1x64 .f32) (ix2 u q) = (V c main_v48 : S1x64.Idx → EReal) (ix2 u q) := by
  obtain ⟨-, -, -, -, -, -, e0, e1, -⟩ := block_index1 t
  unfold iblk1
  rw [View.read_apply]
  show V c main_v48 _ = V c main_v48 _
  congr 1
  funext a; apply Fin.ext
  match a with
  | ⟨0, _⟩ => show win1_3.index t (0 : Fin 2) * 1 + 1 * u.val = u.val; rw [e0]; omega
  | ⟨1, _⟩ => show win1_3.index t (1 : Fin 2) * 64 + 1 * q.val = q.val; rw [e1]; omega

theorem flushed1_eq (t : Fin cfg1.N) :
    (dat1 (F := Ideal) V c).flushed 4 t = ((cfg1.win 4).blk t).view.read (Elt Ideal)
      (finalizeRef (V c main_v47) (V c main_v35) (V c main_v34) (V c main_v48)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S5000x1) zero_offsets, View.ld_unit_zero (S := S1x64) zero_offsets]
  obtain ⟨-, -, -, -, -, -, -, -, e0, e1⟩ := block_index1 t
  have ht : t.val < 20 := Nat.lt_of_lt_of_eq t.isLt N_1
  funext j
  obtain ⟨p, q, rfl⟩ : ∃ (p : Fin 5000) (q : Fin 64), j = ix2 p q := ⟨j 0, j 1, eq_ix2 j⟩
  have hr : 5000 * t.val + p.val < 100000 := by have := p.isLt; omega
  have hemb : ((cfg1.win 4).blk t).view.emb (ix2 p q) = (ix2 (⟨5000 * t.val + p.val, hr⟩ : Fin 100000) q : S100000x64.Idx) := by
    funext a; apply Fin.ext
    match a with
    | ⟨0, _⟩ => show win1_4.index t (0 : Fin 2) * 5000 + 1 * p.val = 5000 * t.val + p.val; rw [e0]; omega
    | ⟨1, _⟩ => show win1_4.index t (1 : Fin 2) * 64 + 1 * q.val = q.val; rw [e1]; omega
  show k1_pay1 (F := Ideal) (iblk1 V c 0 t) (iblk1 V c 1 t) (iblk1 V c 2 t) (iblk1 V c 3 t) (ix2 p q)
    = finalizeRef (V c main_v47) (V c main_v35) (V c main_v34) (V c main_v48) (((cfg1.win 4).blk t).view.emb (ix2 p q))
  rw [hemb, pay1_apply, finalizeRef_apply]
  rw [agg_block1 V c t p q ⟨_, hr⟩ rfl, xw_block1 V c t p q ⟨_, hr⟩ rfl, inv_block1 V c t p 0 ⟨_, hr⟩ rfl, bias_block1 V c t 0 q]

theorem mem_block1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v49).slice (win1_4.rect t)).set ↔ _
  rw [View.set_slice_whole, Rect.mem_set_unit]
  exact Iff.rfl

theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [show cfg1.N = 20 from N_1]; omega⟩, rfl⟩
  obtain ⟨-, -, -, -, -, -, -, -, e0, e1⟩ := block_index1 t
  refine ⟨t, flush1_4 t, ?_⟩
  rw [mem_block1]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 64 ≤ (i 1).val ∧ (i 1).val < win1_4.index t (1 : Fin 2) * 64 + 64; rw [e1]; omega

-- Block by block the output array is the reference's pointwise chain of the four input arrays.
theorem fin1_value : ((dat1 (F := Ideal) V c).arrAt 4 cfg1.N)
    = maximumf (addf (addf (V c main_v47) (mulf (V c main_v35) (broadcastInDim Cert.ReferenceIdeal.S100000x64 ![0, 1] Cert.ReferenceIdeal.Facts₀.bcast_S100000x1_S100000x64_0_1 (V c main_v34))))
                     (broadcastInDim Cert.ReferenceIdeal.S100000x64 ![0, 1] Cert.ReferenceIdeal.Facts₀.bcast_S1x64_S100000x64_0_1 (V c main_v48)))
               (broadcastInDim Cert.ReferenceIdeal.S100000x64 ![] Cert.ReferenceIdeal.Facts₀.bcast_S_S100000x64 (constant (F := Ideal) Cert.ReferenceIdeal.S_ .f32 0x00000000#32)) :=
  (dat1 (F := Ideal) V c).arrAt_eq_of_cover 4 (finalizeRef (V c main_v47) (V c main_v35) (V c main_v34) (V c main_v48))
    (fun t _ => flushed1_eq V c t) (cover1)

end Region1

end Cert.KernelIdeal.Val

end
-- ==== Proof.KI.ValFin3.lean ====
import proofs.«428694_j27238682591744_3_alg».proof.Proof.Gen.ReferenceIdeal
import proofs.«428694_j27238682591744_3_alg».proof.Proof.KI.R3
import proofs.«428694_j27238682591744_3_alg».proof.Proof.KI.Finalize
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.Pipeline (Dat)
open Idealize.ShloMosaic.ValueIdx

/-! # Finalize region 3: the pointwise finalize over blocks of 5000 rows is the pointwise finalize over the arrays

Each grid point finalizes rows `5000 t … 5000 t + 4999`: out = max((agg + xw * invdeg) + bias, 0), the inverse degree one
column per row, the bias one row for all. Read index by index the block's payload and the reference's whole-array term are the
same expression of the same four entries; the 20 blocks tile the 100000 rows. -/

section Region3

variable (V : (c : Dev nD) → (b : Ref sig .tc) → Buf (Elt Ideal) ((c : Thread nD τ).loc b)) (c : Dev nD)

/-- The finalize payload at row `p`, column `q` of a block: max((agg + xw * invdeg[p]) + bias[q], 0). -/
theorem pay3_apply (x0 x1 : FVec Ideal S5000x64 .f32) (x2 : FVec Ideal S5000x1 .f32) (x3 : FVec Ideal S1x64 .f32) (p : Fin 5000) (q : Fin 64) :
    k3_pay1 (F := Ideal) x0 x1 x2 x3 (ix2 p q)
      = max ((x0 (ix2 p q) + x1 (ix2 p q) * x2 (ix2 p (0 : Fin 1))) + x3 (ix2 (0 : Fin 1) q)) (Ideal.ofBits .f32 0x00000000#32) := by
  unfold k3_pay1
  simp only [shapeCast_self]
  rw [maximumf_apply, addf_apply, addf_apply, mulf_apply, broadcast_apply]
  rw [broadcastTo_a1_ab_apply, broadcastTo_1b_ab_apply]
  rfl

/-- The printed index maps of region 3, decided over its 20 grid points: the four row-blocked windows (aggregate, product,
    inverse degree, output) sit at row block `t`, column block 0; the bias window stays at block (0, 0). -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point `t` is rows `5000 t … 5000 t + 4999` of the aggregate. -/
theorem agg_block3 (t : Fin cfg3.N) (p : Fin 5000) (q : Fin 64) (r : Fin 100000) (hr : r.val = 5000 * t.val + p.val) :
    (iblk3 V c 0 t : FVec Ideal S5000x64 .f32) (ix2 p q) = (V c main_v62 : S100000x64.Idx → EReal) (ix2 r q) := by
  obtain ⟨e0, e1, -⟩ := block_index3 t
  unfold iblk3
  rw [View.read_apply]
  show V c main_v62 _ = V c main_v62 _
  congr 1
  funext a; apply Fin.ext
  match a with
  | ⟨0, _⟩ => show win3_0.index t (0 : Fin 2) * 5000 + 1 * p.val = r.val; rw [e0, hr]; omega
  | ⟨1, _⟩ => show win3_0.index t (1 : Fin 2) * 64 + 1 * q.val = q.val; rw [e1]; omega

/-- The product's block at point `t` is rows `5000 t … 5000 t + 4999` of the product. -/
theorem xw_block3 (t : Fin cfg3.N) (p : Fin 5000) (q : Fin 64) (r : Fin 100000) (hr : r.val = 5000 * t.val + p.val) :
    (iblk3 V c 1 t : FVec Ideal S5000x64 .f32) (ix2 p q) = (V c main_v50 : S100000x64.Idx → EReal) (ix2 r q) := by
  obtain ⟨-, -, e0, e1, -⟩ := block_index3 t
  unfold iblk3
  rw [View.read_apply]
  show V c main_v50 _ = V c main_v50 _
  congr 1
  funext a; apply Fin.ext
  match a with
  | ⟨0, _⟩ => show win3_1.index t (0 : Fin 2) * 5000 + 1 * p.val = r.val; rw [e0, hr]; omega
  | ⟨1, _⟩ => show win3_1.index t (1 : Fin 2) * 64 + 1 * q.val = q.val; rw [e1]; omega

/-- The inverse degree's block at point `t` is rows `5000 t … 5000 t + 4999` of its one column. -/
theorem inv_block3 (t : Fin cfg3.N) (p : Fin 5000) (u : Fin 1) (r : Fin 100000) (hr : r.val = 5000 * t.val + p.val) :
    (iblk3 V c 2 t : FVec Ideal S5000x1 .f32) (ix2 p u) = (V c main_v34 : S100000x1.Idx → EReal) (ix2 r u) := by
  obtain ⟨-, -, -, -, e0, e1, -⟩ := block_index3 t
  unfold iblk3
  rw [View.read_apply]
  show V c main_v34 _ = V c main_v34 _
  congr 1
  funext a; apply Fin.ext
  match a with
  | ⟨0, _⟩ => show win3_2.index t (0 : Fin 2) * 5000 + 1 * p.val = r.val; rw [e0, hr]; omega
  | ⟨1, _⟩ => show win3_2.index t (1 : Fin 2) * 1 + 1 * u.val = u.val; rw [e1]; omega

/-- The bias's block is the whole bias row at every point. -/
theorem bias_block3 (t : Fin cfg3.N) (u : Fin 1) (q : Fin 64) :
    (iblk3 V c 3 t : FVec Ideal S1x64 .f32) (ix2 u q) = (V c main_v63 : S1x64.Idx → EReal) (ix2 u q) := by
  obtain ⟨-, -, -, -, -, -, e0, e1, -⟩ := block_index3 t
  unfold iblk3
  rw [View.read_apply]
  show V c main_v63 _ = V c main_v63 _
  congr 1
  funext a; apply Fin.ext
  match a with
  | ⟨0, _⟩ => show win3_3.index t (0 : Fin 2) * 1 + 1 * u.val = u.val; rw [e0]; omega
  | ⟨1, _⟩ => show win3_3.index t (1 : Fin 2) * 64 + 1 * q.val = q.val; rw [e1]; omega

/-- WHAT POINT `t` WRITES BACK is block `t` of the reference's finalize of the four arrays as the region finds them:
    element (p, q) of the block is node `5000 t + p`, feature `q`. -/
theorem flushed3_eq (t : Fin cfg3.N) :
    (dat3 (F := Ideal) V c).flushed 4 t = ((cfg3.win 4).blk t).view.read (Elt Ideal)
      (finalizeRef (V c main_v62) (V c main_v50) (V c main_v34) (V c main_v63)) := by
  show (cfg3.win 4).cut (grid3.coords t) ((dat3 V c).after 4 t) = _
  rw [after3_4]
  unfold out3_4
  rw [View.canon_unit_zero zero_offsets]
  simp only [View.ld_unit_zero (S := S5000x64) zero_offsets, View.ld_unit_zero (S := S5000x1) zero_offsets, View.ld_unit_zero (S := S1x64) zero_offsets]
  obtain ⟨-, -, -, -, -, -, -, -, e0, e1⟩ := block_index3 t
  have ht : t.val < 20 := Nat.lt_of_lt_of_eq t.isLt N_3
  funext j
  obtain ⟨p, q, rfl⟩ : ∃ (p : Fin 5000) (q : Fin 64), j = ix2 p q := ⟨j 0, j 1, eq_ix2 j⟩
  have hr : 5000 * t.val + p.val < 100000 := by have := p.isLt; omega
  have hemb : ((cfg3.win 4).blk t).view.emb (ix2 p q) = (ix2 (⟨5000 * t.val + p.val, hr⟩ : Fin 100000) q : S100000x64.Idx) := by
    funext a; apply Fin.ext
    match a with
    | ⟨0, _⟩ => show win3_4.index t (0 : Fin 2) * 5000 + 1 * p.val = 5000 * t.val + p.val; rw [e0]; omega
    | ⟨1, _⟩ => show win3_4.index t (1 : Fin 2) * 64 + 1 * q.val = q.val; rw [e1]; omega
  show k3_pay1 (F := Ideal) (iblk3 V c 0 t) (iblk3 V c 1 t) (iblk3 V c 2 t) (iblk3 V c 3 t) (ix2 p q)
    = finalizeRef (V c main_v62) (V c main_v50) (V c main_v34) (V c main_v63) (((cfg3.win 4).blk t).view.emb (ix2 p q))
  rw [hemb, pay3_apply, finalizeRef_apply]
  rw [agg_block3 V c t p q ⟨_, hr⟩ rfl, xw_block3 V c t p q ⟨_, hr⟩ rfl, inv_block3 V c t p 0 ⟨_, hr⟩ rfl, bias_block3 V c t 0 q]

/-- A node-feature index is in point `t`'s output block iff each coordinate is in the block's range on its axis. -/
theorem mem_block3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v64).slice (win3_4.rect t)).set ↔ _
  rw [View.set_slice_whole, Rect.mem_set_unit]
  exact Iff.rfl

/-- Every node's row is written back by some point: node `r` by point `r / 5000`. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 5000 := ⟨⟨(i 0).val / 5000, by rw [show cfg3.N = 20 from N_3]; omega⟩, rfl⟩
  obtain ⟨-, -, -, -, -, -, -, -, e0, e1⟩ := block_index3 t
  refine ⟨t, flush3_4 t, ?_⟩
  rw [mem_block3]
  intro a
  match a with
  | ⟨0, _⟩ => show win3_4.index t (0 : Fin 2) * 5000 ≤ (i 0).val ∧ (i 0).val < win3_4.index t (0 : Fin 2) * 5000 + 5000; rw [e0, ht]; omega
  | ⟨1, _⟩ => show win3_4.index t (1 : Fin 2) * 64 ≤ (i 1).val ∧ (i 1).val < win3_4.index t (1 : Fin 2) * 64 + 64; rw [e1]; omega

/-- THE ARRAY after the region: the reference's finalize — max((agg + xw * broadcast(invdeg)) + broadcast(bias), 0) — of the
    four arrays as the region finds them. -/
theorem fin3_value : ((dat3 (F := Ideal) V c).arrAt 4 cfg3.N)
    = maximumf (addf (addf (V c main_v62) (mulf (V c main_v50) (broadcastInDim Cert.ReferenceIdeal.S100000x64 ![0, 1] Cert.ReferenceIdeal.Facts₀.bcast_S100000x1_S100000x64_0_1 (V c main_v34))))
                     (broadcastInDim Cert.ReferenceIdeal.S100000x64 ![0, 1] Cert.ReferenceIdeal.Facts₀.bcast_S1x64_S100000x64_0_1 (V c main_v63)))
               (broadcastInDim Cert.ReferenceIdeal.S100000x64 ![] Cert.ReferenceIdeal.Facts₀.bcast_S_S100000x64 (constant (F := Ideal) Cert.ReferenceIdeal.S_ .f32 0x00000000#32)) :=
  (dat3 (F := Ideal) V c).arrAt_eq_of_cover 4 (finalizeRef (V c main_v62) (V c main_v50) (V c main_v34) (V c main_v63))
    (fun t _ => flushed3_eq V c t) (cover3)

end Region3

end Cert.KernelIdeal.Val

end
-- ==== Proof.KI.R4Pieces.lean ====
import Idealize.ShloMosaic.Lib.Pipeline.Value
import proofs.«428694_j27238682591744_3_alg».proof.Proof.KI.R4

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hz2 : (![0, 0] : Fin 2 → ℕ) = fun _ => 0 := by
  funext a; fin_cases a <;> rfl

theorem sout4_A_0_eq (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : cond4_0 i) (hc1 : ¬cond4_1 i)
    (x0 : Vec F S400x64 .f32) (x1 : Vec F S400x1 .i32) (x2 : Vec F S2048x1 .f32) (x3 : Vec F S64x1 .f32) (x4 : Vec F S1x1 .f32) :
    sout4_A_0 c i arg1 harg1 arg2 harg2 arg3 harg3 arg4 harg4 arg5 harg5 arg6 harg6 arg7 harg7 hc0 hc1 x0 x1 x2 x3 x4 = k4_pay2 x0 x1 (k4_pay1 (F := F)) := by
  unfold sout4_A_0
  rw [View.read_writes_eq_canon _ _ _ (scover4_A_0 c i arg1 harg1 arg2 harg2 arg3 harg3 arg4 harg4 arg5 harg5 arg6 harg6 arg7 harg7 hc0 hc1 x0 x1 x2 x3 x4)]
  unfold kernelRun4_A
  dsimp only
  sl_unfold_words
  rw [View.canon_cons_unit_zero (S := S2048x64) hz2, View.readCov_unit_zero (S := S2048x64) _ hz2]
  simp only [View.readAt_eq_ld, harg1.read_unread, harg2.read_unread, harg3.read_unread, harg4.read_unread, harg5.read_unread, harg7.read_unread,
    View.readCov_unit_zero (S := S2048x64) _ hz2, View.ld_unit_zero (S := S400x64) hz2, View.ld_unit_zero (S := S400x1) hz2, View.ld_unit_zero (S := S2048x64) hz2,
    View.ld_unit_zero (S := S2048x1) hz2, View.ld_unit_zero (S := S64x1) hz2, View.ld_unit_zero (S := S1x1) hz2]

theorem sout4_B_0_eq (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : ¬cond4_1 i)
    (x0 : Vec F S400x64 .f32) (x1 : Vec F S400x1 .i32) (x2 : Vec F S2048x1 .f32) (x3 : Vec F S64x1 .f32) (x4 : Vec F S1x1 .f32) (xs0 : Vec F S2048x64 .f32) :
    sout4_B_0 c i arg1 harg1 arg2 harg2 arg3 harg3 arg4 harg4 arg5 harg5 arg6 harg6 arg7 harg7 hc0 hc1 x0 x1 x2 x3 x4 xs0 = k4_pay2 x0 x1 xs0 := by
  unfold sout4_B_0
  rw [View.read_writes_eq_canon _ _ _ (scover4_B_0 c i arg1 harg1 arg2 harg2 arg3 harg3 arg4 harg4 arg5 harg5 arg6 harg6 arg7 harg7 hc0 hc1 x0 x1 x2 x3 x4 xs0)]
  unfold kernelRun4_B
  dsimp only
  sl_unfold_words
  rw [View.canon_unit_zero (S := S2048x64) hz2]
  simp only [View.readAt_eq_ld, harg1.read_unread, harg2.read_unread, harg3.read_unread, harg4.read_unread, harg5.read_unread, harg7.read_unread,
    View.readCov_unit_zero (S := S2048x64) _ hz2, View.ld_unit_zero (S := S400x64) hz2, View.ld_unit_zero (S := S400x1) hz2, View.ld_unit_zero (S := S2048x64) hz2,
    View.ld_unit_zero (S := S2048x1) hz2, View.ld_unit_zero (S := S64x1) hz2, View.ld_unit_zero (S := S1x1) hz2]

theorem sout4_C_0_eq (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : cond4_1 i)
    (x0 : Vec F S400x64 .f32) (x1 : Vec F S400x1 .i32) (x2 : Vec F S2048x1 .f32) (x3 : Vec F S64x1 .f32) (x4 : Vec F S1x1 .f32) (xs0 : Vec F S2048x64 .f32) :
    sout4_C_0 c i arg1 harg1 arg2 harg2 arg3 harg3 arg4 harg4 arg5 harg5 arg6 harg6 arg7 harg7 hc0 hc1 x0 x1 x2 x3 x4 xs0 = k4_pay2 x0 x1 xs0 := by
  unfold sout4_C_0
  rw [View.read_writes_eq_canon _ _ _ (scover4_C_0 c i arg1 harg1 arg2 harg2 arg3 harg3 arg4 harg4 arg5 harg5 arg6 harg6 arg7 harg7 hc0 hc1 x0 x1 x2 x3 x4 xs0)]
  unfold kernelRun4_C
  dsimp only
  sl_unfold_words
  rw [View.canon_unit_zero (S := S2048x64) hz2]
  simp only [View.readAt_eq_ld, harg1.read_unread, harg2.read_unread, harg3.read_unread, harg4.read_unread, harg5.read_unread, harg7.read_unread,
    View.readCov_unit_zero (S := S2048x64) _ hz2, View.ld_unit_zero (S := S400x64) hz2, View.ld_unit_zero (S := S400x1) hz2, View.ld_unit_zero (S := S2048x64) hz2,
    View.ld_unit_zero (S := S2048x1) hz2, View.ld_unit_zero (S := S64x1) hz2, View.ld_unit_zero (S := S1x1) hz2]

theorem out4_C_5_eq (c : Dev nD) (i : grid4.Coords) (arg1 : Memref sig .tc .vmem S400x64 .f32) (harg1 : arg1.IsWhole) (arg2 : Memref sig .tc .vmem S400x1 .i32) (harg2 : arg2.IsWhole) (arg3 : Memref sig .tc .vmem S2048x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2048x1 .f32) (harg6 : arg6.IsWhole) (arg7 : Memref sig .tc .vmem S2048x64 .f32) (harg7 : arg7.IsWhole) (hc0 : ¬cond4_0 i) (hc1 : cond4_1 i)
    (x0 : Vec F S400x64 .f32) (x1 : Vec F S400x1 .i32) (x2 : Vec F S2048x1 .f32) (x3 : Vec F S64x1 .f32) (x4 : Vec F S1x1 .f32) (xs0 : Vec F S2048x64 .f32) :
    out4_C_5 c i arg1 harg1 arg2 harg2 arg3 harg3 arg4 harg4 arg5 harg5 arg6 harg6 arg7 harg7 hc0 hc1 x0 x1 x2 x3 x4 xs0 = k4_pay3 x2 (k4_pay2 x0 x1 xs0) x3 x4 := by
  unfold out4_C_5
  rw [View.read_writes_eq_canon _ _ _ (cover4_C_5 c i arg1 harg1 arg2 harg2 arg3 harg3 arg4 harg4 arg5 harg5 arg6 harg6 arg7 harg7 hc0 hc1 x0 x1 x2 x3 x4 xs0)]
  unfold kernelRun4_C
  dsimp only
  sl_unfold_words
  rw [View.canon_unit_zero (S := S2048x1) hz2]
  simp only [View.readAt_eq_ld, harg1.read_unread, harg2.read_unread, harg3.read_unread, harg4.read_unread, harg5.read_unread, harg7.read_unread,
    View.readCov_unit_zero (S := S2048x64) _ hz2, View.ld_unit_zero (S := S400x64) hz2, View.ld_unit_zero (S := S400x1) hz2, View.ld_unit_zero (S := S2048x64) hz2,
    View.ld_unit_zero (S := S2048x1) hz2, View.ld_unit_zero (S := S64x1) hz2, View.ld_unit_zero (S := S1x1) hz2]

end Cert.KernelIdeal.Frm

end
-- ==== Proof.KI.PoolMath.lean ====
import Idealize.ShloMosaic.PureOps.Ideal
import Idealize.ShloMosaic.PureOps.Ideal.Laws
import Idealize.ShloMosaic.Lib.ValueIdx
import Mathlib.Algebra.BigOperators.Fin
import Mathlib.Algebra.BigOperators.Intervals

noncomputable section

open scoped BigOperators

namespace Cert.KernelIdeal.Pool

open Idealize.ShloMosaic Idealize.ShloMosaic.ValueIdx

abbrev B400x64 : Shape := ⟨2, ![400, 64]⟩
abbrev B400x1 : Shape := ⟨2, ![400, 1]⟩
abbrev B400x2048 : Shape := ⟨2, ![400, 2048]⟩
abbrev B2048x64 : Shape := ⟨2, ![2048, 64]⟩
abbrev A100000x64 : Shape := ⟨2, ![100000, 64]⟩
abbrev A100000x1 : Shape := ⟨2, ![100000, 1]⟩

abbrev blockDot (wf : DotDims.WF B400x2048 B400x64 B2048x64 [0] [0] [1] [1] [] []) : DotDims B400x2048 B400x64 B2048x64 :=
  ⟨[0], [0], [1], [1], [], [], wf⟩

theorem blockDot_lhsIdx (wf : DotDims.WF B400x2048 B400x64 B2048x64 [0] [0] [1] [1] [] []) (g : Fin 2048) (h : Fin 64)
    (n' : Fin 400) :
    (blockDot wf).lhsIdx (ix2 g h) ((contrEquiv1 (blockDot wf) 400 rfl rfl).symm n') = ix2 n' g := by
  have c := contrEquiv1_symm_val (blockDot wf) 400 rfl rfl n'
  funext ax; apply Fin.ext
  match ax with
  | ⟨0, _⟩ => simp [DotDims.lhsIdx]; exact c
  | ⟨1, _⟩ => simp [DotDims.lhsIdx]; rfl

theorem blockDot_rhsIdx (wf : DotDims.WF B400x2048 B400x64 B2048x64 [0] [0] [1] [1] [] []) (g : Fin 2048) (h : Fin 64)
    (n' : Fin 400) :
    (blockDot wf).rhsIdx (ix2 g h) ((contrEquiv1 (blockDot wf) 400 rfl rfl).symm n') = ix2 n' h := by
  have c := contrEquiv1_symm_val (blockDot wf) 400 rfl rfl n'
  funext ax; apply Fin.ext
  match ax with
  | ⟨0, _⟩ => simp [DotDims.rhsIdx]; exact c
  | ⟨1, _⟩ => simp [DotDims.rhsIdx]; rfl

theorem onehot_word (x y : BitVec 32) :
    (((IntOp.cmpi .eq x y).setWidth 32).toInt : ℝ) = if x = y then 1 else 0 := by
  by_cases e : x = y
  · have hc : IntOp.cmpi .eq x y = 1#1 := by simp [IntOp.cmpi, e]
    have h1 : ((1#1 : BitVec 1).setWidth 32).toInt = 1 := by decide
    rw [hc, h1, if_pos e]; norm_num
  · have hc : IntOp.cmpi .eq x y = 0#1 := by
      show BitVec.ofBool (x == y) = 0#1
      rw [beq_eq_false_iff_ne.mpr e]; rfl
    have h0 : ((0#1 : BitVec 1).setWidth 32).toInt = 0 := by decide
    rw [hc, h0, if_neg e]; norm_num

-- A one-hot block times a feature block, at (g, h): the sum of the block's rows whose graph id is g.
theorem block_product_apply
    (wf : DotDims.WF B400x2048 B400x64 B2048x64 [0] [0] [1] [1] [] [])
    (hio : B400x2048.Iotas .tc 32 [1]) (hbc : B400x1.Broadcasts B400x2048) (hw : 1 < 32)
    (hbf : FTy.bf16.bits < FTy.f32.bits)
    (bblk : IVec B400x1 32) (hblk : FVec Ideal B400x64 .f32) (g : Fin 2048) (h : Fin 64) :
    matmul (F := Ideal) (blockDot wf) none
        (truncf .bf16 (sitofp .f32 (extui 32 (cmpi .eq (iota .tc B400x2048 32 [1] hio) (broadcastTo B400x2048 bblk hbc)) hw)) hbf)
        (truncf .bf16 hblk hbf) (constant B2048x64 .f32 0x00000000#32) (ix2 g h)
      = ∑ n' : Fin 400, if bblk (ix2 n' 0) = BitVec.ofNat 32 g.val then hblk (ix2 n' h) else 0 := by
  show FloatOps.matmul _ none _ _ _ (ix2 g h) = _
  rw [Ideal.matmul_constant_zero_apply, ← Equiv.sum_comp (contrEquiv1 (blockDot wf) 400 rfl rfl).symm]
  refine Finset.sum_congr rfl fun n' _ => ?_
  rw [blockDot_lhsIdx, blockDot_rhsIdx]
  have hi : iota .tc B400x2048 32 [1] hio (ix2 n' g) = BitVec.ofNat 32 g.val := by
    show BitVec.ofNat 32 (0 * 2048 + g.val) = _
    rw [Nat.zero_mul, Nat.zero_add]
  have hb : broadcastTo B400x2048 bblk hbc (ix2 n' g) = bblk (ix2 n' 0) := by
    unfold broadcastTo
    congr 1
    funext a
    match a with
    | ⟨0, _⟩ => rfl
    | ⟨1, _⟩ => rfl
  show ((((IntOp.cmpi .eq (iota .tc B400x2048 32 [1] hio (ix2 n' g)) (broadcastTo B400x2048 bblk hbc (ix2 n' g))).setWidth 32).toInt : ℝ) : EReal)
      * hblk (ix2 n' h) = _
  rw [hi, hb, onehot_word]
  by_cases e : bblk (ix2 n' 0) = BitVec.ofNat 32 g.val
  · rw [if_pos e.symm, if_pos e, EReal.coe_one, one_mul]
  · rw [if_neg (fun e' => e e'.symm), if_neg e, EReal.coe_zero, zero_mul]

section Sum

variable (h2 : A100000x64.Idx → EReal) (batch : IVec A100000x1 32) (g : Fin 2048) (h : Fin 64)

-- Row n's share of graph g's column h: the feature if the row's graph id is g, else 0; 0·x = 0 and 1·x = x at every extended real.
def rowTerm (n : ℕ) : EReal :=
  if hn : n < 100000 then (if batch (ix2 ⟨n, hn⟩ 0) = BitVec.ofNat 32 g.val then h2 (ix2 ⟨n, hn⟩ h) else 0) else 0

def blockSum (t : ℕ) : EReal := ∑ n' ∈ Finset.range 400, rowTerm h2 batch g h (400 * t + n')

def accSum (t : ℕ) : EReal := ∑ s ∈ Finset.range (t + 1), blockSum h2 batch g h s

theorem accSum_zero : accSum h2 batch g h 0 = blockSum h2 batch g h 0 := by
  unfold accSum; rw [Finset.sum_range_one]

theorem accSum_succ (t : ℕ) : accSum h2 batch g h (t + 1) = accSum h2 batch g h t + blockSum h2 batch g h (t + 1) := by
  unfold accSum; rw [Finset.sum_range_succ]

theorem sum_blocks (f : ℕ → EReal) (T : ℕ) :
    ∑ s ∈ Finset.range T, ∑ n' ∈ Finset.range 400, f (400 * s + n') = ∑ n ∈ Finset.range (400 * T), f n := by
  induction T with
  | zero => simp
  | succ T ih => rw [Finset.sum_range_succ, ih, Nat.mul_succ, Finset.sum_range_add]

-- Summing 250 blocks of 400 rows is summing all 100000 rows: the segment sum.
theorem accSum_last :
    accSum h2 batch g h 249 = ∑ n : Fin 100000, if batch (ix2 n 0) = BitVec.ofNat 32 g.val then h2 (ix2 n h) else 0 := by
  unfold accSum blockSum
  rw [show (249 + 1 : ℕ) = 250 from rfl, sum_blocks (rowTerm h2 batch g h) 250, show (400 * 250 : ℕ) = 100000 from rfl,
    Finset.sum_range]
  refine Finset.sum_congr rfl fun n _ => ?_
  unfold rowTerm
  rw [dif_pos n.isLt]

theorem blockSum_eq (t : ℕ) (ht : t < 250) (bblk : IVec B400x1 32) (hblk : B400x64.Idx → EReal)
    (hb : ∀ (n' : Fin 400) (hn : 400 * t + n'.val < 100000), bblk (ix2 n' 0) = batch (ix2 ⟨400 * t + n'.val, hn⟩ 0))
    (hh : ∀ (n' : Fin 400) (h' : Fin 64) (hn : 400 * t + n'.val < 100000),
      hblk (ix2 n' h') = h2 (ix2 ⟨400 * t + n'.val, hn⟩ h')) :
    (∑ n' : Fin 400, if bblk (ix2 n' 0) = BitVec.ofNat 32 g.val then hblk (ix2 n' h) else 0) = blockSum h2 batch g h t := by
  unfold blockSum
  rw [Finset.sum_range]
  refine Finset.sum_congr rfl fun n' _ => ?_
  have hn : 400 * t + n'.val < 100000 := by have := n'.isLt; omega
  unfold rowTerm
  rw [dif_pos hn, hb n' hn, hh n' h hn]

end Sum

end Cert.KernelIdeal.Pool

end
-- ==== Proof.KI.PoolPay.lean ====
import proofs.«428694_j27238682591744_3_alg».proof.Proof.KI.Runs4
import proofs.«428694_j27238682591744_3_alg».proof.Proof.KI.PoolMath
import proofs.«428694_j27238682591744_3_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ValPool

open Cert.KernelIdeal Cert.KernelIdeal.Gen Cert.KernelIdeal.Frm
open Idealize.ShloMosaic Idealize.ShloMosaic.TcCoe Idealize.ShloMosaic.ValueIdx
open Idealize.SL.Sem

theorem pay1_apply (j : S2048x64.Idx) : (k4_pay1 (F := Ideal)) j = 0 := by
  unfold k4_pay1
  simp only [shapeCast_self]
  show Ideal.ofBits .f32 0x00000000#32 = 0
  exact Ideal.ofBits_zero_f32

-- One accumulation step at (g, h): the accumulator plus the block's rows whose graph id is g.
theorem pay2_apply (x0 : Vec Ideal S400x64 .f32) (x1 : Vec Ideal S400x1 .i32) (acc : Vec Ideal S2048x64 .f32)
    (g : Fin 2048) (h : Fin 64) :
    k4_pay2 (F := Ideal) x0 x1 acc (ix2 g h)
      = acc (ix2 g h) + ∑ n' : Fin 400, if x1 (ix2 n' 0) = BitVec.ofNat 32 g.val then x0 (ix2 n' h) else 0 := by
  unfold k4_pay2
  simp only [shapeCast_self]
  refine congrArg (acc (ix2 g h) + ·) ?_
  exact Pool.block_product_apply Facts₀.dot_S400x2048_S400x64_S2048x64_0_0_1_1_n_n_wf Facts₀.iota_S400x2048_d1_w32
    Facts₀.broadcasts_S400x1_S400x2048 Facts₀.natLt_1_32 Facts₀.bitsLt_bf16_f32 x1 x0 g h

theorem headDot_eq : dot_S2048x64_S64x1_S2048x1_1_0_0_1_n_n = Cert.ReferenceIdeal.dot_S2048x64_S64x1_S2048x1_1_0_0_1_n_n := rfl

abbrev divisor (counts : Vec Ideal S2048x1 .f32) : FVec Ideal Cert.ReferenceIdeal.S2048x1 .f32 :=
  fun i => max (counts i) (Ideal.ofBits .f32 0x3F800000#32)

theorem quot_eq (counts : Vec Ideal S2048x1 .f32) (acc : Vec Ideal S2048x64 .f32) :
    (divf acc (broadcastTo S2048x64 (maximumf counts (broadcast S2048x1 (Scalar.ofBits (F := Ideal) .f32 0x3F800000#32)))
        Facts₀.broadcasts_S2048x1_S2048x64) : FVec Ideal S2048x64 .f32)
      = Host.divf acc (broadcastInDim Cert.ReferenceIdeal.S2048x64 ![0, 1] Cert.ReferenceIdeal.Gen.bcast_S2048x1_S2048x64_0_1
          (divisor counts)) := by
  funext j
  obtain ⟨g, h, rfl⟩ : ∃ (g : Fin 2048) (h : Fin 64), j = ix2 g h := ⟨j 0, j 1, eq_ix2 j⟩
  show Ideal.div (acc (ix2 g h)) (broadcastTo S2048x64 (maximumf counts (broadcast S2048x1 (Scalar.ofBits (F := Ideal) .f32 0x3F800000#32)))
        Facts₀.broadcasts_S2048x1_S2048x64 (ix2 g h))
      = Ideal.div (acc (ix2 g h)) (broadcastInDim Cert.ReferenceIdeal.S2048x64 ![0, 1] Cert.ReferenceIdeal.Gen.bcast_S2048x1_S2048x64_0_1
          (divisor counts) (ix2 g h))
  rw [broadcastTo_apply _ Facts₀.broadcasts_S2048x1_S2048x64 (ix2 g h) (ix2 g (0 : Fin 1))
        (fun a => match a with | ⟨0, _⟩ => rfl | ⟨1, _⟩ => rfl),
      broadcastInDim_apply _ Cert.ReferenceIdeal.Gen.bcast_S2048x1_S2048x64_0_1 _ (ix2 g h) (ix2 g (0 : Fin 1))
        (fun a => match a with | ⟨0, _⟩ => rfl | ⟨1, _⟩ => rfl)]
  rfl

abbrev hostHead (counts : Vec Ideal S2048x1 .f32) (acc : Vec Ideal S2048x64 .f32) (wlin : Vec Ideal S64x1 .f32)
    (blin : Vec Ideal S1x1 .f32) : FVec Ideal Cert.ReferenceIdeal.S2048x1 .f32 :=
  addf (Host.dotGeneral (F := Ideal) (φ₁ := .f32) (φ₂ := .f32) Cert.ReferenceIdeal.dot_S2048x64_S64x1_S2048x1_1_0_0_1_n_n none
          (Host.divf acc (broadcastInDim Cert.ReferenceIdeal.S2048x64 ![0, 1] Cert.ReferenceIdeal.Gen.bcast_S2048x1_S2048x64_0_1
            (divisor counts)))
          wlin)
       (broadcastInDim Cert.ReferenceIdeal.S2048x1 ![0, 1] Cert.ReferenceIdeal.Gen.bcast_S1x1_S2048x1_0_1 blin)

-- The last step's output is the reference's head of the accumulator: divide by max(count, 1), multiply by the head's weights, add the bias.
theorem pay3_eq (counts : Vec Ideal S2048x1 .f32) (acc : Vec Ideal S2048x64 .f32) (wlin : Vec Ideal S64x1 .f32)
    (blin : Vec Ideal S1x1 .f32) :
    k4_pay3 (F := Ideal) counts acc wlin blin = hostHead counts acc wlin blin := by
  unfold k4_pay3
  simp only [shapeCast_self]
  funext j
  obtain ⟨g, z, rfl⟩ : ∃ (g : Fin 2048) (z : Fin 1), j = ix2 g z := ⟨j 0, j 1, eq_ix2 j⟩
  refine congrArg₂ (· + ·) ?_ ?_
  · rw [headDot_eq]
    refine (Ideal.matmul_constant_zero_apply Cert.ReferenceIdeal.dot_S2048x64_S64x1_S2048x1_1_0_0_1_n_n none _ _ (ix2 g z)).trans ?_
    refine Eq.trans ?_ (Ideal.dotGeneral_apply (φ₁ := .f32) (φ₂ := .f32) Cert.ReferenceIdeal.dot_S2048x64_S64x1_S2048x1_1_0_0_1_n_n none .single _ wlin (ix2 g z)).symm
    refine Finset.sum_congr rfl fun k _ => ?_
    refine congrArg₂ (· * ·) ?_ rfl
    exact congrFun (quot_eq counts acc) _
  · rw [broadcastTo_apply _ Facts₀.broadcasts_S1x1_S2048x1 (ix2 g z) (ix2 (0 : Fin 1) (0 : Fin 1))
        (fun a => match a with | ⟨0, _⟩ => rfl | ⟨1, _⟩ => rfl),
      broadcastInDim_apply _ Cert.ReferenceIdeal.Gen.bcast_S1x1_S2048x1_0_1 _ (ix2 g z) (ix2 (0 : Fin 1) (0 : Fin 1))
        (fun a => match a with | ⟨0, _⟩ => rfl | ⟨1, _⟩ => rfl)]

section Blocks

variable {F : FTy → Type} [FloatOps F]
variable (V : (c : Dev nD) → (b : Ref sig .tc) → Buf (Elt F) ((c : Thread nD τ).loc b)) (c : Dev nD)

abbrev h2arr : Vec F S100000x64 .f32 := V c main_v64
abbrev batcharr : Vec F S100000x1 .i32 := V c main_v70
abbrev countsarr : Vec F S2048x1 .f32 := V c main_v69
abbrev wlinarr : Vec F S64x1 .f32 := V c main_arg7
abbrev blinarr : Vec F S1x1 .f32 := V c main_v71

abbrev h2blk (t : Fin cfg4.N) : Vec F S400x64 .f32 := iblk4 V c 0 t
abbrev batchblk (t : Fin cfg4.N) : Vec F S400x1 .i32 := iblk4 V c 1 t
abbrev countsblk (t : Fin cfg4.N) : Vec F S2048x1 .f32 := iblk4 V c 2 t
abbrev wlinblk (t : Fin cfg4.N) : Vec F S64x1 .f32 := iblk4 V c 3 t
abbrev blinblk (t : Fin cfg4.N) : Vec F S1x1 .f32 := iblk4 V c 4 t

theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = t.val ∧ win4_1.index t 1 = 0 :=
  (by decide +kernel : ∀ t : Fin grid4.N, win4_1.index t 0 = t.val ∧ win4_1.index t 1 = 0)
theorem index4_2 : ∀ t : Fin cfg4.N, win4_2.index t 0 = 0 ∧ win4_2.index t 1 = 0 :=
  (by decide +kernel : ∀ t : Fin grid4.N, win4_2.index t 0 = 0 ∧ win4_2.index t 1 = 0)
theorem index4_3 : ∀ t : Fin cfg4.N, win4_3.index t 0 = 0 ∧ win4_3.index t 1 = 0 :=
  (by decide +kernel : ∀ t : Fin grid4.N, win4_3.index t 0 = 0 ∧ win4_3.index t 1 = 0)
theorem index4_4 : ∀ t : Fin cfg4.N, win4_4.index t 0 = 0 ∧ win4_4.index t 1 = 0 :=
  (by decide +kernel : ∀ t : Fin grid4.N, win4_4.index t 0 = 0 ∧ win4_4.index t 1 = 0)

theorem h2blk_apply (t : Fin cfg4.N) (n' : Fin 400) (h : Fin 64) (hn : 400 * t.val + n'.val < 100000) :
    h2blk V c t (ix2 n' h) = h2arr V c (ix2 ⟨400 * t.val + n'.val, hn⟩ h) := by
  have hi := index4_0 t
  unfold h2blk h2arr iblk4
  rw [View.read_apply]
  show V c main_v64 _ = V c main_v64 _
  congr 1
  funext a
  apply Fin.ext
  match a with
  | ⟨0, _⟩ => show win4_0.index t 0 * 400 + 1 * n'.val = 400 * t.val + n'.val; rw [hi.1]; omega
  | ⟨1, _⟩ => show win4_0.index t 1 * 64 + 1 * h.val = h.val; rw [hi.2]; omega

theorem batchblk_apply (t : Fin cfg4.N) (n' : Fin 400) (hn : 400 * t.val + n'.val < 100000) :
    batchblk V c t (ix2 n' 0) = batcharr V c (ix2 ⟨400 * t.val + n'.val, hn⟩ 0) := by
  have hi := index4_1 t
  unfold batchblk batcharr iblk4
  rw [View.read_apply]
  show V c main_v70 _ = V c main_v70 _
  congr 1
  funext a
  apply Fin.ext
  match a with
  | ⟨0, _⟩ => show win4_1.index t 0 * 400 + 1 * n'.val = 400 * t.val + n'.val; rw [hi.1]; omega
  | ⟨1, _⟩ => show win4_1.index t 1 * 1 + 1 * 0 = 0; rw [hi.2]

theorem countsblk_eq (t : Fin cfg4.N) : countsblk V c t = countsarr V c := by
  have hi := index4_2 t
  funext j
  unfold countsblk countsarr iblk4
  rw [View.read_apply]
  show V c main_v69 _ = V c main_v69 _
  congr 1
  funext a
  apply Fin.ext
  match a with
  | ⟨0, _⟩ => show win4_2.index t 0 * 2048 + 1 * (j 0).val = (j 0).val; rw [hi.1]; omega
  | ⟨1, _⟩ => show win4_2.index t 1 * 1 + 1 * (j 1).val = (j 1).val; rw [hi.2]; omega

theorem wlinblk_eq (t : Fin cfg4.N) : wlinblk V c t = wlinarr V c := by
  have hi := index4_3 t
  funext j
  unfold wlinblk wlinarr iblk4
  rw [View.read_apply]
  show V c main_arg7 _ = V c main_arg7 _
  congr 1
  funext a
  apply Fin.ext
  match a with
  | ⟨0, _⟩ => show win4_3.index t 0 * 64 + 1 * (j 0).val = (j 0).val; rw [hi.1]; omega
  | ⟨1, _⟩ => show win4_3.index t 1 * 1 + 1 * (j 1).val = (j 1).val; rw [hi.2]; omega

theorem blinblk_eq (t : Fin cfg4.N) : blinblk V c t = blinarr V c := by
  have hi := index4_4 t
  funext j
  unfold blinblk blinarr iblk4
  rw [View.read_apply]
  show V c main_v71 _ = V c main_v71 _
  congr 1
  funext a
  apply Fin.ext
  match a with
  | ⟨0, _⟩ => show win4_4.index t 0 * 1 + 1 * (j 0).val = (j 0).val; rw [hi.1]; omega
  | ⟨1, _⟩ => show win4_4.index t 1 * 1 + 1 * (j 1).val = (j 1).val; rw [hi.2]; omega

end Blocks

end Cert.KernelIdeal.ValPool

end
-- ==== Proof.KI.PoolScatter.lean ====
import proofs.«428694_j27238682591744_3_alg».proof.Proof.Gen.ReferenceIdeal
import Idealize.ShloMosaic.PureOps.Ideal
import Idealize.ShloMosaic.Lib.ValueIdx

noncomputable section
namespace Cert.KernelIdeal.Val
open Idealize.ShloMosaic Idealize.ShloMosaic.ValueIdx
open scoped BigOperators

local notation "dS" => Cert.ReferenceIdeal.scatter_S2048x64_S100000x1_S100000x64_1_0_0_1

theorem poolScatter_siIdx (j : Cert.ReferenceIdeal.S100000x64.Idx) :
    (dS).siIdx j ⟨0, by decide⟩ = ix2 (j 0) 0 := by
  funext b
  match b with
  | ⟨0, _⟩ => rfl
  | ⟨1, _⟩ => rfl

theorem poolScatter_start_row (j : Cert.ReferenceIdeal.S100000x64.Idx) (idx : IVec Cert.ReferenceIdeal.S100000x1 32) :
    (dS).start j idx 0 = (idx (ix2 (j 0) 0)).toInt := by
  have h : (dS).start j idx 0 = (idx ((dS).siIdx j ⟨0, by decide⟩)).toInt := rfl
  exact h.trans (congrArg (fun i => (idx i).toInt) (poolScatter_siIdx j))

theorem poolScatter_start_col (j : Cert.ReferenceIdeal.S100000x64.Idx) (idx : IVec Cert.ReferenceIdeal.S100000x1 32) :
    (dS).start j idx 1 = 0 := rfl

theorem poolScatter_window_row (j : Cert.ReferenceIdeal.S100000x64.Idx) : (dS).window j 0 = 0 := rfl

theorem poolScatter_window_col (j : Cert.ReferenceIdeal.S100000x64.Idx) : (dS).window j 1 = (j 1).val := rfl

theorem poolScatter_toInt_eq_iff (b : BitVec 32) (g : Fin 2048) : b.toInt = (g.val : ℤ) ↔ b = BitVec.ofNat 32 g.val := by
  have hlt := g.isLt
  have hg : (BitVec.ofNat 32 g.val).toInt = (g.val : ℤ) := by
    rw [BitVec.toInt_eq_toNat_of_lt (by rw [BitVec.toNat_ofNat]; omega), BitVec.toNat_ofNat]; omega
  constructor
  · intro hv; exact BitVec.eq_of_toInt_eq (hv.trans hg.symm)
  · rintro rfl; exact hg

theorem poolScatter_lands_iff (idx : IVec Cert.ReferenceIdeal.S100000x1 32) (n : Fin 100000) (h' : Fin 64) (g : Fin 2048) (h : Fin 64) :
    (dS).resultIdx? (ix2 n h') idx = some (ix2 g h) ↔ (h' = h ∧ idx (ix2 n 0) = BitVec.ofNat 32 g.val) := by
  rw [← poolScatter_toInt_eq_iff]
  have s0 : (dS).start (ix2 n h') idx 0 = (idx (ix2 n 0)).toInt := poolScatter_start_row _ _
  have s1 := poolScatter_start_col (ix2 n h') idx
  have w0 := poolScatter_window_row (ix2 n h')
  have w1 : (dS).window (ix2 n h') 1 = h'.val := poolScatter_window_col _
  have hg := g.isLt
  have hh' := h'.isLt
  unfold ScatterDims.resultIdx?
  split
  ·
    rename_i hc
    rw [Option.some.injEq]
    constructor
    · intro he
      have e0 : ((dS).start (ix2 n h') idx 0 + (dS).window (ix2 n h') 0).toNat = g.val := congrArg Fin.val (congrFun he 0)
      have e1 : ((dS).start (ix2 n h') idx 1 + (dS).window (ix2 n h') 1).toNat = h.val := congrArg Fin.val (congrFun he 1)
      have c0 := (hc 0).1
      rw [s0, w0] at e0 c0
      rw [s1, w1] at e1
      exact ⟨Fin.ext (by omega), by omega⟩
    · rintro ⟨rfl, hv⟩
      funext a
      match a with
      | ⟨0, _⟩ =>
        apply Fin.ext
        show ((dS).start (ix2 n h') idx 0 + (dS).window (ix2 n h') 0).toNat = g.val
        rw [s0, w0]; omega
      | ⟨1, _⟩ =>
        apply Fin.ext
        show ((dS).start (ix2 n h') idx 1 + (dS).window (ix2 n h') 1).toNat = h'.val
        rw [s1, w1]; omega
  ·
    rename_i hc
    constructor
    · intro he; cases he
    · rintro ⟨rfl, hv⟩
      exfalso; apply hc; intro a
      match a with
      | ⟨0, _⟩ =>
        show 0 ≤ (dS).start (ix2 n h') idx 0 + (dS).window (ix2 n h') 0 ∧ (dS).start (ix2 n h') idx 0 + (dS).window (ix2 n h') 0 < (2048 : ℕ)
        rw [s0, w0]; omega
      | ⟨1, _⟩ =>
        show 0 ≤ (dS).start (ix2 n h') idx 1 + (dS).window (ix2 n h') 1 ∧ (dS).start (ix2 n h') idx 1 + (dS).window (ix2 n h') 1 < (64 : ℕ)
        rw [s1, w1]; omega

-- The reference's scatter-add at (g, h): the initial value plus the updates of the rows whose index is g; a row with an index outside [0, 2048) lands nowhere.
theorem poolScatter_apply (x : Cert.ReferenceIdeal.S2048x64.Idx → EReal) (idx : IVec Cert.ReferenceIdeal.S100000x1 32)
    (upd : Cert.ReferenceIdeal.S100000x64.Idx → EReal) (g : Fin 2048) (h : Fin 64) :
    Host.scatterAdd (F := Ideal) (φ := .f32) dS x idx upd (ix2 g h)
      = x (ix2 g h) + ∑ n : Fin 100000, (if idx (ix2 n 0) = BitVec.ofNat 32 g.val then upd (ix2 n h) else 0) := by
  show Ideal.hostScatterAdd dS x idx upd (ix2 g h) = _
  unfold Ideal.hostScatterAdd
  refine congrArg (x (ix2 g h) + ·) ?_
  rw [Finset.sum_filter, sum_idx2]
  refine Finset.sum_congr rfl fun n _ => ?_
  simp only [poolScatter_lands_iff]
  by_cases hc : idx (ix2 n 0) = BitVec.ofNat 32 g.val
  · simp only [hc, and_true, Finset.sum_ite_eq', Finset.mem_univ, if_true]
  · simp only [hc, and_false, if_false, Finset.sum_const_zero]

end Cert.KernelIdeal.Val
end
-- ==== Proof.KI.ValPool.lean ====
import proofs.«428694_j27238682591744_3_alg».proof.Proof.KI.R4Pieces
import proofs.«428694_j27238682591744_3_alg».proof.Proof.KI.PoolPay
import proofs.«428694_j27238682591744_3_alg».proof.Proof.KI.PoolScatter
import Idealize.ShloMosaic.Lib.Pipeline.Value

set_option maxRecDepth 16384

noncomputable section

open scoped BigOperators

namespace Cert.KernelIdeal.ValPool

open Cert.KernelIdeal Cert.KernelIdeal.Gen Cert.KernelIdeal.Frm Cert.KernelIdeal.Val
open Idealize.ShloMosaic Idealize.ShloMosaic.TcCoe Idealize.ShloMosaic.ValueIdx
open Idealize.SL.Sem
open Idealize.ShloMosaic.Pipeline (Dat)

section Cases

variable {F : FTy → Type} [FloatOps F]
variable (V : (c : Dev nD) → (b : Ref sig .tc) → Buf (Elt F) ((c : Thread nD τ).loc b)) (c : Dev nD)

abbrev accAt (n : ℕ) (hn : n < cfg4.N) : Vec F S2048x64 .f32 := (outsAt4 V c n hn).2

theorem acc_first (t : Fin cfg4.N) (h0 : t.val % 250 = 0) (h1 : ¬t.val % 250 = 249) :
    accAt V c t.val t.isLt = k4_pay2 (h2blk V c t) (batchblk V c t) (k4_pay1 (F := F)) := by
  unfold accAt
  rw [outsAt4_A V c t h0 h1]
  dsimp only
  exact sout4_A_0_eq c (grid4.coords t) (ms4_0 t) (hs4_0 t) (ms4_1 t) (hs4_1 t) (ms4_2 t) (hs4_2 t) (ms4_3 t) (hs4_3 t)
    (ms4_4 t) (hs4_4 t) (ms4_5 t) (hs4_5 t) scM4_0 (Memref.isWhole_whole _) ((hcond4_0 t).mpr h0)
    (fun h => h1 ((hcond4_1 t).mp h)) (iblk4 V c 0 t) (iblk4 V c 1 t) (iblk4 V c 2 t) (iblk4 V c 3 t) (iblk4 V c 4 t)

theorem acc_middle (t : Fin cfg4.N) (h0 : ¬t.val % 250 = 0) (h1 : ¬t.val % 250 = 249) :
    accAt V c t.val t.isLt
      = k4_pay2 (h2blk V c t) (batchblk V c t) (accAt V c (t.val - 1) (Nat.lt_of_le_of_lt (Nat.sub_le _ _) t.isLt)) := by
  unfold accAt
  rw [outsAt4_B V c t h0 h1]
  dsimp only
  exact sout4_B_0_eq c (grid4.coords t) (ms4_0 t) (hs4_0 t) (ms4_1 t) (hs4_1 t) (ms4_2 t) (hs4_2 t) (ms4_3 t) (hs4_3 t)
    (ms4_4 t) (hs4_4 t) (ms4_5 t) (hs4_5 t) scM4_0 (Memref.isWhole_whole _) (fun h => h0 ((hcond4_0 t).mp h))
    (fun h => h1 ((hcond4_1 t).mp h)) (iblk4 V c 0 t) (iblk4 V c 1 t) (iblk4 V c 2 t) (iblk4 V c 3 t) (iblk4 V c 4 t)
    (outsAt4 V c (t.val - 1) (Nat.lt_of_le_of_lt (Nat.sub_le _ _) t.isLt)).2

theorem acc_last (t : Fin cfg4.N) (h0 : ¬t.val % 250 = 0) (h1 : t.val % 250 = 249) :
    accAt V c t.val t.isLt
      = k4_pay2 (h2blk V c t) (batchblk V c t) (accAt V c (t.val - 1) (Nat.lt_of_le_of_lt (Nat.sub_le _ _) t.isLt)) := by
  unfold accAt
  rw [outsAt4_C V c t h0 h1]
  dsimp only
  exact sout4_C_0_eq c (grid4.coords t) (ms4_0 t) (hs4_0 t) (ms4_1 t) (hs4_1 t) (ms4_2 t) (hs4_2 t) (ms4_3 t) (hs4_3 t)
    (ms4_4 t) (hs4_4 t) (ms4_5 t) (hs4_5 t) scM4_0 (Memref.isWhole_whole _) (fun h => h0 ((hcond4_0 t).mp h))
    ((hcond4_1 t).mpr h1) (iblk4 V c 0 t) (iblk4 V c 1 t) (iblk4 V c 2 t) (iblk4 V c 3 t) (iblk4 V c 4 t)
    (outsAt4 V c (t.val - 1) (Nat.lt_of_le_of_lt (Nat.sub_le _ _) t.isLt)).2

theorem out_last (t : Fin cfg4.N) (h0 : ¬t.val % 250 = 0) (h1 : t.val % 250 = 249) :
    (outsAt4 V c t.val t.isLt).1
      = k4_pay3 (countsblk V c t) (accAt V c t.val t.isLt) (wlinblk V c t) (blinblk V c t) := by
  rw [acc_last V c t h0 h1]
  unfold accAt
  rw [outsAt4_C V c t h0 h1]
  dsimp only
  exact out4_C_5_eq c (grid4.coords t) (ms4_0 t) (hs4_0 t) (ms4_1 t) (hs4_1 t) (ms4_2 t) (hs4_2 t) (ms4_3 t) (hs4_3 t)
    (ms4_4 t) (hs4_4 t) (ms4_5 t) (hs4_5 t) scM4_0 (Memref.isWhole_whole _) (fun h => h0 ((hcond4_0 t).mp h))
    ((hcond4_1 t).mpr h1) (iblk4 V c 0 t) (iblk4 V c 1 t) (iblk4 V c 2 t) (iblk4 V c 3 t) (iblk4 V c 4 t)
    (outsAt4 V c (t.val - 1) (Nat.lt_of_le_of_lt (Nat.sub_le _ _) t.isLt)).2

end Cases

section Value

variable (V : (c : Dev nD) → (b : Ref sig .tc) → Buf (Elt Ideal) ((c : Thread nD τ).loc b)) (c : Dev nD)

-- By induction on the grid point: the accumulator is the segment sum over the blocks so far.
theorem acc_eq : ∀ (n : ℕ) (hn : n < cfg4.N) (g : Fin 2048) (h : Fin 64),
    accAt V c n hn (ix2 g h) = Pool.accSum (h2arr V c) (batcharr V c) g h n
  | 0, hn, g, h => by
    have hA := acc_first V c ⟨0, hn⟩ (show (0 : ℕ) % 250 = 0 from rfl) (show ¬(0 : ℕ) % 250 = 249 from by decide)
    rw [show accAt V c 0 hn = k4_pay2 (h2blk V c ⟨0, hn⟩) (batchblk V c ⟨0, hn⟩) (k4_pay1 (F := Ideal)) from hA,
      pay2_apply, pay1_apply, zero_add, Pool.accSum_zero]
    exact Pool.blockSum_eq (h2arr V c) (batcharr V c) g h 0 (by decide) (batchblk V c ⟨0, hn⟩) (h2blk V c ⟨0, hn⟩)
      (fun n' hn' => batchblk_apply V c ⟨0, hn⟩ n' hn') (fun n' h' hn' => h2blk_apply V c ⟨0, hn⟩ n' h' hn')
  | n + 1, hn, g, h => by
    have hN : cfg4.N = 250 := N_4
    have ih := acc_eq n (Nat.lt_of_succ_lt hn) g h
    have h0 : ¬(⟨n + 1, hn⟩ : Fin cfg4.N).val % 250 = 0 := by dsimp only; omega
    have step : accAt V c (n + 1) hn
        = k4_pay2 (h2blk V c ⟨n + 1, hn⟩) (batchblk V c ⟨n + 1, hn⟩) (accAt V c n (Nat.lt_of_succ_lt hn)) := by
      by_cases h1 : (⟨n + 1, hn⟩ : Fin cfg4.N).val % 250 = 249
      · exact acc_last V c ⟨n + 1, hn⟩ h0 h1
      · exact acc_middle V c ⟨n + 1, hn⟩ h0 h1
    rw [step, pay2_apply, ih, Pool.accSum_succ]
    refine congrArg (Pool.accSum (h2arr V c) (batcharr V c) g h n + ·) ?_
    exact Pool.blockSum_eq (h2arr V c) (batcharr V c) g h (n + 1) (by omega) (batchblk V c ⟨n + 1, hn⟩) (h2blk V c ⟨n + 1, hn⟩)
      (fun n' hn' => batchblk_apply V c ⟨n + 1, hn⟩ n' hn') (fun n' h' hn' => h2blk_apply V c ⟨n + 1, hn⟩ n' h' hn')

abbrev segsum : FVec Ideal Cert.ReferenceIdeal.S2048x64 .f32 :=
  Host.scatterAdd (F := Ideal) (φ := .f32) Cert.ReferenceIdeal.scatter_S2048x64_S100000x1_S100000x64_1_0_0_1
    (broadcastInDim Cert.ReferenceIdeal.S2048x64 ![] Cert.ReferenceIdeal.Gen.bcast_S_S2048x64
      (constant (F := Ideal) Cert.ReferenceIdeal.S_ .f32 0x00000000#32))
    (batcharr V c) (h2arr V c)

abbrev tlast : Fin cfg4.N := ⟨249, by decide⟩

theorem acc_final : accAt V c tlast.val tlast.isLt = segsum V c := by
  funext j
  obtain ⟨g, h, rfl⟩ : ∃ (g : Fin 2048) (h : Fin 64), j = ix2 g h := ⟨j 0, j 1, eq_ix2 j⟩
  rw [acc_eq V c 249 tlast.isLt g h, Pool.accSum_last]
  refine Eq.trans ?_ (poolScatter_apply _ (batcharr V c) (h2arr V c) g h).symm
  show _ = Ideal.ofBits .f32 0x00000000#32 + _
  rw [Ideal.ofBits_zero_f32, zero_add]

abbrev result : Buf (Elt Ideal) ((c : Thread nD τ).loc main_v72) :=
  hostHead (countsarr V c) (segsum V c) (wlinarr V c) (blinarr V c)

theorem out_final : (outsAt4 V c tlast.val tlast.isLt).1 = result V c := by
  rw [out_last V c tlast (by decide) (by decide), acc_final, countsblk_eq, wlinblk_eq, blinblk_eq, pay3_eq]

end Value

section Final

variable (V : (c : Dev nD) → (b : Ref sig .tc) → Buf (Elt Ideal) ((c : Thread nD τ).loc b)) (c : Dev nD)

theorem flushed_eq (t : Fin cfg4.N) (hf : (cfg4.win 5).flush t = true) :
    (dat4 V c).flushed 5 t = ((cfg4.win 5).blk t).view.read (Elt Ideal) (result V c) := by
  have hN : cfg4.N = 250 := N_4
  have h249 : t.val = 249 := by have := (flush4_5 t).mp hf; have := t.isLt; omega
  obtain rfl : t = tlast := Fin.ext h249
  show (cfg4.win 5).cut (grid4.coords tlast) ((dat4 V c).after 5 tlast) = _
  rw [after4_5, out_final]
  have hz' : (fun a => win4_5.index tlast a * main_v72.ty.shape.size a) = fun _ => 0 :=
    funext fun a => by fin_cases a <;> decide +kernel
  exact (Memref.read_access_unit_zero (Elt Ideal) main_v72 hz' (fun a => by rw [congrFun hz' a]; simp) (result V c)).symm

theorem pool_result : (dat4 (F := Ideal) V c).arrAt 5 cfg4.N = result V c :=
  (dat4 V c).arrAt_eq_of_cover 5 (result V c) (flushed_eq V c) fun i =>
    ⟨tlast, (flush4_5 tlast).mpr rfl, by
      show i ∈ ((View.whole main_v72).slice (win4_5.rect tlast)).set
      rw [View.set_slice_whole, Rect.mem_set_unit]
      intro a
      have h0 : (i 0 : Nat) < 2048 := (i 0).isLt
      have h1 : (i 1 : Nat) < 1 := (i 1).isLt
      match a with
      | ⟨0, _⟩ =>
        show win4_5.index tlast 0 * win4_5.size 0 ≤ (i 0 : Nat)
          ∧ (i 0 : Nat) < win4_5.index tlast 0 * win4_5.size 0 + win4_5.xsize (grid4.coords tlast) 0
        rw [show win4_5.index tlast 0 * win4_5.size 0 = 0 from by decide +kernel,
          show win4_5.xsize (grid4.coords tlast) 0 = 2048 from by decide +kernel]
        omega
      | ⟨1, _⟩ =>
        show win4_5.index tlast 1 * win4_5.size 1 ≤ (i 1 : Nat)
          ∧ (i 1 : Nat) < win4_5.index tlast 1 * win4_5.size 1 + win4_5.xsize (grid4.coords tlast) 1
        rw [show win4_5.index tlast 1 * win4_5.size 1 = 0 from by decide +kernel,
          show win4_5.xsize (grid4.coords tlast) 1 = 1 from by decide +kernel]
        omega⟩

-- The pooled result array is the reference's term of the region's input arrays.
theorem pool_value : ((dat4 (F := Ideal) V c).arrAt 5 cfg4.N)
    = addf (Host.dotGeneral (F := Ideal) (φ₁ := .f32) (φ₂ := .f32) Cert.ReferenceIdeal.dot_S2048x64_S64x1_S2048x1_1_0_0_1_n_n none
             (Host.divf
               (Host.scatterAdd (F := Ideal) (φ := .f32) Cert.ReferenceIdeal.scatter_S2048x64_S100000x1_S100000x64_1_0_0_1
                 (broadcastInDim Cert.ReferenceIdeal.S2048x64 ![] Cert.ReferenceIdeal.Gen.bcast_S_S2048x64
                   (constant (F := Ideal) Cert.ReferenceIdeal.S_ .f32 0x00000000#32))
                 (V c main_v70 : IVec Cert.ReferenceIdeal.S100000x1 32)
                 (V c main_v64 : FVec Ideal Cert.ReferenceIdeal.S100000x64 .f32))
               (broadcastInDim Cert.ReferenceIdeal.S2048x64 ![0, 1] Cert.ReferenceIdeal.Gen.bcast_S2048x1_S2048x64_0_1
                 (fun i => max ((V c main_v69 : FVec Ideal Cert.ReferenceIdeal.S2048x1 .f32) i) (Ideal.ofBits .f32 0x3F800000#32)
                   : FVec Ideal Cert.ReferenceIdeal.S2048x1 .f32)))
             (V c main_arg7 : FVec Ideal Cert.ReferenceIdeal.S64x1 .f32))
           (broadcastInDim Cert.ReferenceIdeal.S2048x1 ![0, 1] Cert.ReferenceIdeal.Gen.bcast_S1x1_S2048x1_0_1
             (V c main_v71 : FVec Ideal Cert.ReferenceIdeal.S1x1 .f32)) :=
  pool_result V c

end Final

end Cert.KernelIdeal.ValPool

end
-- ==== Proof.KI.Bridge.lean ====
import proofs.«428694_j27238682591744_3_alg».proof.Proof.KI.Run
import proofs.«428694_j27238682591744_3_alg».proof.Proof.Gen.ReferenceIdeal.Read
import proofs.«428694_j27238682591744_3_alg».proof.Proof.KI.BridgeHost0
import proofs.«428694_j27238682591744_3_alg».proof.Proof.KI.ValLin
import proofs.«428694_j27238682591744_3_alg».proof.Proof.KI.ValFin1
import proofs.«428694_j27238682591744_3_alg».proof.Proof.KI.ValFin3
import proofs.«428694_j27238682591744_3_alg».proof.Proof.KI.ValPool
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

-- The neighbour sum: gather rows by source, scale by the edge coefficient, segment-sum by destination.
def edgeSum (xw : (⟨S100000x64, .f32⟩ : BufTy).Contents (Elt F)) (src dst : (⟨S3200000, .i32⟩ : BufTy).Contents (Elt F))
    (coef : (⟨S3200000x1, .f32⟩ : BufTy).Contents (Elt F)) : (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 dst)
    (mulf
      (Host.gather gather_S100000x64_S3200000x1_S3200000x64_1_0_n_n_0_1_164 xw
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src)))
      (broadcastInDim S3200000x64 ![0, 1] bcast_S3200000x1_S3200000x64_0_1 coef))

set_option maxHeartbeats 2000000 in
theorem host1_agg (W : Valuation τ sig (Elt F)) :
    StableHlo.after hostOps1 W (Proc.devRef .tc main_v47)
      = edgeSum (W (Proc.devRef .tc main_v35)) (W (Proc.devRef .tc main_v1)) (W (Proc.devRef .tc main_v3)) (W (Proc.devRef .tc main_v31)) := by
  dsimp only [hostOps1]
  after_results
  rfl

theorem host1_bias (W : Valuation τ sig (Elt F)) :
    StableHlo.after hostOps1 W (Proc.devRef .tc main_v48)
      = shapeCast S1x64 (W (Proc.devRef .tc main_arg4) : (⟨S64, .f32⟩ : BufTy).Contents (Elt F)) shapeCasts_S64_S1x64 := by
  dsimp only [hostOps1]
  after_results
  rfl

set_option maxHeartbeats 2000000 in
theorem host3_agg (W : Valuation τ sig (Elt F)) :
    StableHlo.after hostOps3 W (Proc.devRef .tc main_v62)
      = edgeSum (W (Proc.devRef .tc main_v50)) (W (Proc.devRef .tc main_v1)) (W (Proc.devRef .tc main_v3)) (W (Proc.devRef .tc main_v31)) := by
  dsimp only [hostOps3]
  after_results
  rfl

theorem host3_bias (W : Valuation τ sig (Elt F)) :
    StableHlo.after hostOps3 W (Proc.devRef .tc main_v63)
      = shapeCast S1x64 (W (Proc.devRef .tc main_arg6) : (⟨S64, .f32⟩ : BufTy).Contents (Elt F)) shapeCasts_S64_S1x64 := by
  dsimp only [hostOps3]
  after_results
  rfl

theorem host4_counts (W : Valuation τ sig (Elt F)) :
    StableHlo.after hostOps4 W (Proc.devRef .tc main_v69)
      = broadcastInDim S2048x1 ![0] bcast_S2048_S2048x1_0
          (Cert.ReferenceIdeal.Read.val_main_v112 (F := F) (W (Proc.devRef .tc main_arg2))) := by
  dsimp only [hostOps4]
  after_results
  rfl

theorem host4_batch (W : Valuation τ sig (Elt F)) :
    StableHlo.after hostOps4 W (Proc.devRef .tc main_v70)
      = Cert.ReferenceIdeal.Read.val_main_v107 (F := F) (W (Proc.devRef .tc main_arg2)) := by
  dsimp only [hostOps4]
  after_results
  rfl

theorem host4_blin (W : Valuation τ sig (Elt F)) :
    StableHlo.after hostOps4 W (Proc.devRef .tc main_v71)
      = shapeCast S1x1 (W (Proc.devRef .tc main_arg8) : (⟨S1, .f32⟩ : BufTy).Contents (Elt F)) shapeCasts_S1_S1x1 := by
  dsimp only [hostOps4]
  after_results
  rfl

theorem row_of_vector {α : Type} (x : S64.Idx → α) (h1 : S64.ShapeCasts S1x64)
    (h2 : S64.BroadcastsInDim S1x64 (![1] : Fin 1 → Fin S1x64.rank)) :
    shapeCast S1x64 x h1 = broadcastInDim S1x64 ![1] h2 x := by
  funext i
  have hi0 : (i 0).val < 1 := (i 0).isLt
  rw [shapeCast_apply x h1 i (fun a => match a with | ⟨0, _⟩ => ⟨(i 1).val, (i 1).isLt⟩)
        (by rewrite [Shape.rowMajor_val_one, Shape.rowMajor_val_two]; show (i 1).val = (i 0).val * 64 + (i 1).val; omega),
      broadcastInDim_apply _ h2 x i (fun a => match a with | ⟨0, _⟩ => ⟨(i 1).val, (i 1).isLt⟩) (fun a => match a with
        | ⟨0, _⟩ => by show (i 1).val = if (64 : Nat) = 1 then 0 else (i 1).val; rw [if_neg (by decide)])]

theorem cell_of_vector {α : Type} (x : S1.Idx → α) (h1 : S1.ShapeCasts S1x1)
    (h2 : S1.BroadcastsInDim S1x1 (![1] : Fin 1 → Fin S1x1.rank)) :
    shapeCast S1x1 x h1 = broadcastInDim S1x1 ![1] h2 x := by
  funext i
  have hi0 : (i 0).val < 1 := (i 0).isLt
  have hi1 : (i 1).val < 1 := (i 1).isLt
  rw [shapeCast_apply x h1 i (fun a => match a with | ⟨0, _⟩ => ⟨0, Nat.one_pos⟩)
        (by rewrite [Shape.rowMajor_val_one, Shape.rowMajor_val_two]; show 0 = (i 0).val * 1 + (i 1).val; omega),
      broadcastInDim_apply _ h2 x i (fun a => match a with | ⟨0, _⟩ => ⟨0, Nat.one_pos⟩) (fun a => match a with
        | ⟨0, _⟩ => by show 0 = if (1 : Nat) = 1 then 0 else (i 1).val; rw [if_pos rfl])]

theorem max_of_column (cnt one1 : FVec F S2048 .f32) (one2 : FVec F S2048x1 .f32)
    (h0 : S2048.BroadcastsInDim S2048x1 (![0] : Fin 1 → Fin S2048x1.rank)) (hone : ∀ i j, one2 i = one1 j) :
    maximumf (broadcastInDim S2048x1 ![0] h0 cnt) one2 = broadcastInDim S2048x1 ![0] h0 (maximumf cnt one1) := by
  funext i
  have e : ∀ y : FVec F S2048 .f32, broadcastInDim S2048x1 ![0] h0 y i = y (fun a => match a with | ⟨0, _⟩ => ⟨(i 0).val, (i 0).isLt⟩) :=
    fun y => broadcastInDim_apply _ h0 y i _ (fun a => match a with
      | ⟨0, _⟩ => by show (i 0).val = if (2048 : Nat) = 1 then 0 else (i 0).val; rw [if_neg (by decide)])
  show FloatOps.maximumf (broadcastInDim S2048x1 ![0] h0 cnt i) (one2 i) = broadcastInDim S2048x1 ![0] h0 (maximumf cnt one1) i
  rw [e, e, hone i]
  rfl

section Ref
open Cert.ReferenceIdeal.Read

theorem ref_agg1 (x0 : (⟨S100000x4, .f32⟩ : BufTy).Contents (Elt F)) (x1 : (⟨S2x3200000, .i32⟩ : BufTy).Contents (Elt F))
    (x3 : (⟨S4x64, .f32⟩ : BufTy).Contents (Elt F)) :
    val_main_v44 (F := F) x0 x1 x3 = edgeSum (val_main_v4 (F := F) x0 x3) (val_main_v1 (F := F) x1) (val_main_v3 (F := F) x1) (val_main_v32 (F := F) x1) := rfl

end Ref

section Chain
open Cert.ReferenceIdeal.Read

variable (m : (ℓ : Loc nD τ sig) → Buf (Elt Ideal) ℓ) (c : Dev nD)

set_option quotPrecheck false
local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)
local notation "x₆" => m ((c : Thread nD τ).loc main_arg6)
local notation "x₇" => m ((c : Thread nD τ).loc main_arg7)
local notation "x₈" => m ((c : Thread nD τ).loc main_arg8)

theorem ref_agg2 :
    val_main_v95 (F := Ideal) x₀ x₁ x₃ x₄ x₅
      = edgeSum (val_main_v55 (F := Ideal) x₀ x₁ x₃ x₄ x₅) (val_main_v1 (F := Ideal) x₁) (val_main_v3 (F := Ideal) x₁) (val_main_v32 (F := Ideal) x₁) := rfl

theorem W1_src : Frm.W1 m c (Proc.devRef .tc main_v1) = val_main_v1 (F := Ideal) x₁ := host0_src (Frm.W0 m c)
theorem W1_dst : Frm.W1 m c (Proc.devRef .tc main_v3) = val_main_v3 (F := Ideal) x₁ := host0_dst (Frm.W0 m c)
theorem W1_coef : Frm.W1 m c (Proc.devRef .tc main_v31) = val_main_v32 (F := Ideal) x₁ := host0_coef (Frm.W0 m c)
theorem W1_invdeg : Frm.W1 m c (Proc.devRef .tc main_v34) = val_main_v47 (F := Ideal) x₁ := host0_invdeg (Frm.W0 m c)

theorem W2_xw : Frm.W2 m c (Proc.devRef .tc main_v35) = val_main_v4 (F := Ideal) x₀ x₃ := by
  refine (Frm.W2_arr m c 2).trans ?_
  rw [lin0_value]
  exact congrArg₂ (Host.dotGeneral (F := Ideal) (φ₁ := .f32) (φ₂ := .f32) Cert.ReferenceIdeal.dot_S100000x4_S4x64_S100000x64_1_0_0_1_n_n none)
    (Frm.W1_of m c main_arg0 (by decide)) (Frm.W1_of m c main_arg3 (by decide))
theorem W2_src : Frm.W2 m c (Proc.devRef .tc main_v1) = val_main_v1 (F := Ideal) x₁ :=
  (Frm.W2_of_ne m c main_v1 (by decide)).trans (W1_src m c)
theorem W2_dst : Frm.W2 m c (Proc.devRef .tc main_v3) = val_main_v3 (F := Ideal) x₁ :=
  (Frm.W2_of_ne m c main_v3 (by decide)).trans (W1_dst m c)
theorem W2_coef : Frm.W2 m c (Proc.devRef .tc main_v31) = val_main_v32 (F := Ideal) x₁ :=
  (Frm.W2_of_ne m c main_v31 (by decide)).trans (W1_coef m c)
theorem W2_invdeg : Frm.W2 m c (Proc.devRef .tc main_v34) = val_main_v47 (F := Ideal) x₁ :=
  (Frm.W2_of_ne m c main_v34 (by decide)).trans (W1_invdeg m c)
theorem W2_arg4 : Frm.W2 m c (Proc.devRef .tc main_arg4) = x₄ :=
  (Frm.W2_of_ne m c main_arg4 (by decide)).trans (Frm.W1_of m c main_arg4 (by decide))

theorem W3_agg : Frm.W3 m c (Proc.devRef .tc main_v47) = val_main_v44 (F := Ideal) x₀ x₁ x₃ := by
  refine (host1_agg (Frm.W2 m c)).trans ?_
  rw [W2_xw, W2_src, W2_dst, W2_coef, ref_agg1]
theorem W3_bias : Frm.W3 m c (Proc.devRef .tc main_v48) = val_main_v51 (F := Ideal) x₄ := by
  refine (host1_bias (Frm.W2 m c)).trans ?_
  rw [W2_arg4]
  exact row_of_vector _ _ Cert.ReferenceIdeal.Gen.bcast_S64_S1x64_1
theorem W3_xw : Frm.W3 m c (Proc.devRef .tc main_v35) = val_main_v4 (F := Ideal) x₀ x₃ :=
  (Frm.W3_of m c main_v35 (by decide)).trans (W2_xw m c)
theorem W3_invdeg : Frm.W3 m c (Proc.devRef .tc main_v34) = val_main_v47 (F := Ideal) x₁ :=
  (Frm.W3_of m c main_v34 (by decide)).trans (W2_invdeg m c)

theorem W4_h1 : Frm.W4 m c (Proc.devRef .tc main_v49) = val_main_v54 (F := Ideal) x₀ x₁ x₃ x₄ := by
  refine (Frm.W4_arr m c 4).trans ?_
  rw [fin1_value]
  dsimp only [Frm.V3]
  rw [W3_agg, W3_xw, W3_invdeg, W3_bias]
  rfl

theorem W4_launch (r : Ref sig .tc) (h0 : r ∉ hostOps0_W) (h1 : ∀ w, Pipeline.arrRef spec0 w ≠ r) (h2 : r ∉ hostOps1_W)
    (h3 : ∀ w, Pipeline.arrRef spec1 w ≠ r) : Frm.W4 m c (Proc.devRef .tc r) = m ((c : Thread nD τ).loc r) :=
  (Frm.W4_of_ne m c r h3).trans <| (Frm.W3_of m c r h2).trans <| (Frm.W2_of_ne m c r h1).trans (Frm.W1_of m c r h0)

theorem W4_src : Frm.W4 m c (Proc.devRef .tc main_v1) = val_main_v1 (F := Ideal) x₁ :=
  (Frm.W4_of_ne m c main_v1 (by decide)).trans <| (Frm.W3_of m c main_v1 (by decide)).trans (W2_src m c)
theorem W4_dst : Frm.W4 m c (Proc.devRef .tc main_v3) = val_main_v3 (F := Ideal) x₁ :=
  (Frm.W4_of_ne m c main_v3 (by decide)).trans <| (Frm.W3_of m c main_v3 (by decide)).trans (W2_dst m c)
theorem W4_coef : Frm.W4 m c (Proc.devRef .tc main_v31) = val_main_v32 (F := Ideal) x₁ :=
  (Frm.W4_of_ne m c main_v31 (by decide)).trans <| (Frm.W3_of m c main_v31 (by decide)).trans (W2_coef m c)
theorem W4_invdeg : Frm.W4 m c (Proc.devRef .tc main_v34) = val_main_v47 (F := Ideal) x₁ :=
  (Frm.W4_arr m c 2).trans <| ((Frm.dat1 (Frm.V3 m) c).arrAt_in 2 rfl _).trans <| (Frm.A_eq1 (Frm.V3 m) c 2).trans (W3_invdeg m c)

theorem W5_xw : Frm.W5 m c (Proc.devRef .tc main_v50) = val_main_v55 (F := Ideal) x₀ x₁ x₃ x₄ x₅ := by
  refine (Frm.W5_arr m c 2).trans ?_
  rw [lin2_value]
  exact congrArg₂ (Host.dotGeneral (F := Ideal) (φ₁ := .f32) (φ₂ := .f32) Cert.ReferenceIdeal.dot_S100000x64_S64x64_S100000x64_1_0_0_1_n_n none)
    (W4_h1 m c) (W4_launch m c main_arg5 (by decide) (by decide) (by decide) (by decide))
theorem W5_src : Frm.W5 m c (Proc.devRef .tc main_v1) = val_main_v1 (F := Ideal) x₁ :=
  (Frm.W5_of_ne m c main_v1 (by decide)).trans (W4_src m c)
theorem W5_dst : Frm.W5 m c (Proc.devRef .tc main_v3) = val_main_v3 (F := Ideal) x₁ :=
  (Frm.W5_of_ne m c main_v3 (by decide)).trans (W4_dst m c)
theorem W5_coef : Frm.W5 m c (Proc.devRef .tc main_v31) = val_main_v32 (F := Ideal) x₁ :=
  (Frm.W5_of_ne m c main_v31 (by decide)).trans (W4_coef m c)
theorem W5_invdeg : Frm.W5 m c (Proc.devRef .tc main_v34) = val_main_v47 (F := Ideal) x₁ :=
  (Frm.W5_of_ne m c main_v34 (by decide)).trans (W4_invdeg m c)
theorem W5_launch (r : Ref sig .tc) (h0 : r ∉ hostOps0_W) (h1 : ∀ w, Pipeline.arrRef spec0 w ≠ r) (h2 : r ∉ hostOps1_W)
    (h3 : ∀ w, Pipeline.arrRef spec1 w ≠ r) (h4 : ∀ w, Pipeline.arrRef spec2 w ≠ r) :
    Frm.W5 m c (Proc.devRef .tc r) = m ((c : Thread nD τ).loc r) :=
  (Frm.W5_of_ne m c r h4).trans (W4_launch m c r h0 h1 h2 h3)

theorem W6_agg : Frm.W6 m c (Proc.devRef .tc main_v62) = val_main_v95 (F := Ideal) x₀ x₁ x₃ x₄ x₅ := by
  refine (host3_agg (Frm.W5 m c)).trans ?_
  rw [W5_xw, W5_src, W5_dst, W5_coef, ref_agg2]
theorem W6_bias : Frm.W6 m c (Proc.devRef .tc main_v63) = val_main_v102 (F := Ideal) x₆ := by
  refine (host3_bias (Frm.W5 m c)).trans ?_
  rw [W5_launch m c main_arg6 (by decide) (by decide) (by decide) (by decide) (by decide)]
  exact row_of_vector _ _ Cert.ReferenceIdeal.Gen.bcast_S64_S1x64_1
theorem W6_xw : Frm.W6 m c (Proc.devRef .tc main_v50) = val_main_v55 (F := Ideal) x₀ x₁ x₃ x₄ x₅ :=
  (Frm.W6_of m c main_v50 (by decide)).trans (W5_xw m c)
theorem W6_invdeg : Frm.W6 m c (Proc.devRef .tc main_v34) = val_main_v47 (F := Ideal) x₁ :=
  (Frm.W6_of m c main_v34 (by decide)).trans (W5_invdeg m c)

theorem W7_h2 : Frm.W7 m c (Proc.devRef .tc main_v64) = val_main_v105 (F := Ideal) x₀ x₁ x₃ x₄ x₅ x₆ := by
  refine (Frm.W7_arr m c 4).trans ?_
  rw [fin3_value]
  dsimp only [Frm.V6]
  rw [W6_agg, W6_xw, W6_invdeg, W6_bias]
  rfl
theorem W7_launch (r : Ref sig .tc) (h0 : r ∉ hostOps0_W) (h1 : ∀ w, Pipeline.arrRef spec0 w ≠ r) (h2 : r ∉ hostOps1_W)
    (h3 : ∀ w, Pipeline.arrRef spec1 w ≠ r) (h4 : ∀ w, Pipeline.arrRef spec2 w ≠ r) (h5 : r ∉ hostOps3_W)
    (h6 : ∀ w, Pipeline.arrRef spec3 w ≠ r) : Frm.W7 m c (Proc.devRef .tc r) = m ((c : Thread nD τ).loc r) :=
  (Frm.W7_of_ne m c r h6).trans <| (Frm.W6_of m c r h5).trans (W5_launch m c r h0 h1 h2 h3 h4)

theorem W8_counts : Frm.W8 m c (Proc.devRef .tc main_v69)
    = broadcastInDim S2048x1 ![0] bcast_S2048_S2048x1_0 (val_main_v112 (F := Ideal) x₂) := by
  refine (host4_counts (Frm.W7 m c)).trans ?_
  rw [W7_launch m c main_arg2 (by decide) (by decide) (by decide) (by decide) (by decide) (by decide) (by decide)]
theorem W8_batch : Frm.W8 m c (Proc.devRef .tc main_v70) = val_main_v107 (F := Ideal) x₂ := by
  refine (host4_batch (Frm.W7 m c)).trans ?_
  rw [W7_launch m c main_arg2 (by decide) (by decide) (by decide) (by decide) (by decide) (by decide) (by decide)]
theorem W8_blin : Frm.W8 m c (Proc.devRef .tc main_v71) = val_main_v119 (F := Ideal) x₈ := by
  refine (host4_blin (Frm.W7 m c)).trans ?_
  rw [W7_launch m c main_arg8 (by decide) (by decide) (by decide) (by decide) (by decide) (by decide) (by decide)]
  exact cell_of_vector _ _ Cert.ReferenceIdeal.Gen.bcast_S1_S1x1_1
theorem W8_h2 : Frm.W8 m c (Proc.devRef .tc main_v64) = val_main_v105 (F := Ideal) x₀ x₁ x₃ x₄ x₅ x₆ :=
  (Frm.W8_of m c main_v64 (by decide)).trans (W7_h2 m c)
theorem W8_wlin : Frm.W8 m c (Proc.devRef .tc main_arg7) = x₇ :=
  (Frm.W8_of m c main_arg7 (by decide)).trans (W7_launch m c main_arg7 (by decide) (by decide) (by decide) (by decide) (by decide) (by decide) (by decide))

theorem result_value : Frm.W9 m c (Proc.devRef .tc main_v72)
    = val_main_v121 (F := Ideal) x₀ x₁ x₂ x₃ x₄ x₅ x₆ x₇ x₈ := by
  refine (Frm.W9_arr m c 5).trans ?_
  rw [Cert.KernelIdeal.ValPool.pool_value]
  dsimp only [Frm.V8]
  rw [W8_counts, W8_batch, W8_blin, W8_h2, W8_wlin]
  have hmax : (fun i => max (broadcastInDim S2048x1 ![0] bcast_S2048_S2048x1_0 (val_main_v112 (F := Ideal) x₂) i) (Ideal.ofBits .f32 0x3F800000#32))
      = val_main_v115 (F := Ideal) x₂ :=
    max_of_column (F := Ideal) (val_main_v112 (F := Ideal) x₂) (val_main_v113 (F := Ideal)) (fun _ => Ideal.ofBits .f32 0x3F800000#32)
      bcast_S2048_S2048x1_0 (fun _ _ => rfl)
  unfold val_main_v121 val_main_v118 val_main_v117 val_main_v116
  rw [← hmax]
  rfl

end Chain

-- Stage by stage the kernel program's buffers hold the reference's terms of the arguments, so the two results agree.
theorem result_agrees (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev nD) :
    Cert.KernelIdeal.Frm.W9 m c (Proc.devRef .tc main_v72) = Cert.ReferenceIdeal.Value.res_main_v121 m' c := by
  obtain ⟨h0, h1, h2, h3, h4, h5, h6, h7, h8⟩ := hagree c
  rw [result_value, Cert.ReferenceIdeal.Read.val_main_v121_eq, h0, h1, h2, h3, h4, h5, h6, h7, h8]

end Cert.KernelIdeal.Val

end
-- ==== Proof.lean ====
import proofs.«428694_j27238682591744_3_alg».proof.Defs
import proofs.«428694_j27238682591744_3_alg».proof.Proof.Gen.Kernel
import proofs.«428694_j27238682591744_3_alg».proof.Proof.Gen.KernelIdeal
import proofs.«428694_j27238682591744_3_alg».proof.Proof.Gen.ReferenceIdeal
import proofs.«428694_j27238682591744_3_alg».proof.Proof.Gen.Pre_finite_inputs
import proofs.«428694_j27238682591744_3_alg».proof.Proof.Gen.ReferenceIdeal.Run
import proofs.«428694_j27238682591744_3_alg».proof.Proof.SameProgram
import proofs.«428694_j27238682591744_3_alg».proof.Proof.KI.Run
import proofs.«428694_j27238682591744_3_alg».proof.Proof.KI.Bridge
import Idealize.ShloMosaic.Adequacy
import Idealize.ShloMosaic.Init

noncomputable section

namespace Cert.Proof

open Idealize.ShloMosaic Idealize.ShloMosaic.TcCoe Idealize.SL.Sem

section Run
open Cert.KernelIdeal Cert.KernelIdeal.Frm

variable {F : FTy → Type} [FloatOps F]

-- At either reading of the floats the kernel program ends with its result at the last fold's value and no argument written.
theorem kernel_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v72) = W9 m c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v72 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c)⟩)
    (run_all m ρ)

end Run

theorem frame_kernelIdeal : Cert.frame_KernelIdeal := fun m ρ _ =>
  (θ_run Cert.KernelIdeal.defs _ _).mono (fun _ h c => (h c).2) (kernel_run m ρ)

-- The idealization rewrote nothing, so the program as printed is the same text: its frame is the same run.
theorem frame_kernel : Cert.frame_Kernel := fun m ρ _ =>
  θ_run_same m ρ _ ((θ_run Cert.KernelIdeal.defs _ _).mono (fun _ h c => (h c).2) (kernel_run (F := Bits) m ρ))

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- The kernel program's result is the last fold's value, which the stage-by-stage comparison identifies with the reference's term.
theorem algebraic : Cert.algebraic_KernelIdeal_ReferenceIdeal := fun m ρ m' ρ' _ hagree =>
  ⟨fun c => Cert.KernelIdeal.Frm.W9 m c (Proc.devRef .tc Cert.KernelIdeal.main_v72), kernel_run m ρ,
    (θ_run Cert.ReferenceIdeal.defs _ _).mono (fun _ h c =>
      ⟨(h c).1.trans (Cert.KernelIdeal.Val.result_agrees m m' hagree c).symm, (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
